-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v131) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S100000 : Shape := ⟨1, ![100000]⟩
abbrev S64x128 : Shape := ⟨2, ![64, 128]⟩
abbrev S64 : Shape := ⟨1, ![64]⟩
abbrev S64x64 : Shape := ⟨2, ![64, 64]⟩
abbrev S1x64 : Shape := ⟨2, ![1, 64]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S1x64 : S_.BroadcastsInDim S1x64 (![] : Fin 0 → Fin S1x64.rank)
  reducesTo_S1x64_S_d0_1 : S1x64.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg8 : FVec F S64 .f32) (main_arg14 : FVec F S64 .f32) (main_arg16 : FVec F S1 .f32) (main_v63 : IVec S_ 1) (main_v67 : IVec S_ 1) : IVec S_ 1 :=
  let main_v68 : IVec S_ 1 := andi main_v63 main_v67
  let main_v69 : FVec F S1 .f32 := Host.absf main_arg16
  let main_cst_26 : FVec F S_ .f32 := constant S_ .f32 0x7F800000#32
  let main_v70 : FVec F S1 .f32 := broadcastInDim S1 ![] bcast_S_S1 main_cst_26
  let main_v71 : IVec S1 1 := cmpf .olt main_v69 main_v70
  let main_c_27 : IVec S_ 1 := constantI S_ 1 1#1
  let main_v72 : IVec S_ 1 := (fun x v => Host.reduce IntOp.andi x v reducesTo_S1_S_d0 h_S_) main_v71 main_c_27
  let main_v73 : IVec S_ 1 := andi main_v68 main_v72
  let main_cst_28 : FVec F S_ .f32 := constant S_ .f32 0x00000000#32
  let main_v74 : FVec F S64 .f32 := broadcastInDim S64 ![] bcast_S_S64 main_cst_28
  let main_v75 : IVec S64 1 := cmpf .oge main_arg8 main_v74
  let main_c_29 : IVec S_ 1 := constantI S_ 1 1#1
  let main_v76 : IVec S_ 1 := (fun x v => Host.reduce IntOp.andi x v reducesTo_S64_S_d0 h_S_) main_v75 main_c_29
  let main_v77 : IVec S_ 1 := andi main_v73 main_v76
  let main_cst_30 : FVec F S_ .f32 := constant S_ .f32 0x00000000#32
  let main_v78 : FVec F S64 .f32 := broadcastInDim S64 ![] bcast_S_S64 main_cst_30
  let main_v79 : IVec S64 1 := cmpf .oge main_arg14 main_v78
  let main_c_31 : IVec S_ 1 := constantI S_ 1 1#1
  let main_v80 : IVec S_ 1 := (fun x v => Host.reduce IntOp.andi x v reducesTo_S64_S_d0 h_S_) main_v79 main_c_31
  let main_v81 : IVec S_ 1 := andi main_v77 main_v80
  main_v81

def fn_part3 {F : FTy → Type} [FloatOps F] (main_arg8 : FVec F S64 .f32) (main_arg13 : FVec F S64 .f32) (main_arg14 : FVec F S64 .f32) (main_arg15 : FVec F S1x64 .f32) (main_arg16 : FVec F S1 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64 .f32 := Host.absf main_arg13
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64 .f32 := Host.absf main_arg14
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S1x64 .f32 := Host.absf main_arg15
  let main_cst_24 : FVec F S_ .f32 := constant S_ .f32 0x7F800000#32
  let main_v65 : FVec F S1x64 .f32 := broadcastInDim S1x64 ![] bcast_S_S1x64 main_cst_24
  let main_v66 : IVec S1x64 1 := cmpf .olt main_v64 main_v65
  let main_c_25 : IVec S_ 1 := constantI S_ 1 1#1
  let main_v67 : IVec S_ 1 := (fun x v => Host.reduce IntOp.andi x v reducesTo_S1x64_S_d0_1 h_S_) main_v66 main_c_25
  fn_part4 (F := F) main_arg8 main_arg14 main_arg16 main_v63 main_v67

def fn_part2 {F : FTy → Type} [FloatOps F] (main_arg8 : FVec F S64 .f32) (main_arg9 : FVec F S64x64 .f32) (main_arg10 : FVec F S64 .f32) (main_arg11 : FVec F S64 .f32) (main_arg12 : FVec F S64 .f32) (main_arg13 : FVec F S64 .f32) (main_arg14 : FVec F S64 .f32) (main_arg15 : FVec F S1x64 .f32) (main_arg16 : FVec F S1 .f32) (main_v33 : IVec S_ 1) : IVec S_ 1 :=
  let main_v34 : FVec F S64x64 .f32 := Host.absf main_arg9
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_arg8 main_arg13 main_arg14 main_arg15 main_arg16 main_v48 main_v49 main_v50

def fn_part1 {F : FTy → Type} [FloatOps F] (main_arg6 : FVec F S64 .f32) (main_arg7 : FVec F S64 .f32) (main_arg8 : FVec F S64 .f32) (main_arg9 : FVec F S64x64 .f32) (main_arg10 : FVec F S64 .f32) (main_arg11 : FVec F S64 .f32) (main_arg12 : FVec F S64 .f32) (main_arg13 : FVec F S64 .f32) (main_arg14 : FVec F S64 .f32) (main_arg15 : FVec F S1x64 .f32) (main_arg16 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_arg10 main_arg11 main_arg12 main_arg13 main_arg14 main_arg15 main_arg16 main_v33

def fn {F : FTy → Type} [FloatOps F] (main_arg0 : FVec F S100000x128 .f32) (main_arg1 : IVec S2x3200000 32) (main_arg2 : IVec S100000 32) (main_arg3 : FVec F S64x128 .f32) (main_arg4 : FVec F S64 .f32) (main_arg5 : FVec F S64 .f32) (main_arg6 : FVec F S64 .f32) (main_arg7 : FVec F S64 .f32) (main_arg8 : FVec F S64 .f32) (main_arg9 : FVec F S64x64 .f32) (main_arg10 : FVec F S64 .f32) (main_arg11 : FVec F S64 .f32) (main_arg12 : FVec F S64 .f32) (main_arg13 : FVec F S64 .f32) (main_arg14 : FVec F S64 .f32) (main_arg15 : FVec F S1x64 .f32) (main_arg16 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S64x128 .f32 := Host.absf main_arg3
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_arg10 main_arg11 main_arg12 main_arg13 main_arg14 main_arg15 main_arg16 main_v13 main_v16
-- ==== Kernel.lean ====
abbrev S100000x128 : Shape := ⟨2, ![100000, 128]⟩
abbrev S2x3200000 : Shape := ⟨2, ![2, 3200000]⟩
abbrev S100000 : Shape := ⟨1, ![100000]⟩
abbrev S64x128 : Shape := ⟨2, ![64, 128]⟩
abbrev S64 : Shape := ⟨1, ![64]⟩
abbrev S64x64 : Shape := ⟨2, ![64, 64]⟩
abbrev S1x64 : Shape := ⟨2, ![1, 64]⟩
abbrev S1 : Shape := ⟨1, ![1]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S128x64 : Shape := ⟨2, ![128, 64]⟩
abbrev S100000x1 : Shape := ⟨2, ![100000, 1]⟩
abbrev S100000x64 : Shape := ⟨2, ![100000, 64]⟩
abbrev S2000x128 : Shape := ⟨2, ![2000, 128]⟩
abbrev S2000x1 : Shape := ⟨2, ![2000, 1]⟩
abbrev S2000x64 : Shape := ⟨2, ![2000, 64]⟩
abbrev S3200000x64 : Shape := ⟨2, ![3200000, 64]⟩
abbrev S64x1 : Shape := ⟨2, ![64, 1]⟩
abbrev S1x1 : Shape := ⟨2, ![1, 1]⟩
abbrev S256x1 : Shape := ⟨2, ![256, 1]⟩
abbrev S256x64 : Shape := ⟨2, ![256, 64]⟩
abbrev S2000x256 : Shape := ⟨2, ![2000, 256]⟩
abbrev S200x1 : Shape := ⟨2, ![200, 1]⟩

abbrev nBuf : Space → Nat
  | .hbm => 89
  | .vmem => 33
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S100000, .i32⟩
  | .hbm, ⟨3, _⟩ => ⟨S64x128, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S64, .f32⟩
  | .hbm, ⟨12, _⟩ => ⟨S64, .f32⟩
  | .hbm, ⟨13, _⟩ => ⟨S64, .f32⟩
  | .hbm, ⟨14, _⟩ => ⟨S64, .f32⟩
  | .hbm, ⟨15, _⟩ => ⟨S1x64, .f32⟩
  | .hbm, ⟨16, _⟩ => ⟨S1, .f32⟩
  | .hbm, ⟨17, _⟩ => ⟨S1x3200000, .i32⟩
  | .hbm, ⟨18, _⟩ => ⟨S3200000, .i32⟩
  | .hbm, ⟨19, _⟩ => ⟨S1x3200000, .i32⟩
  | .hbm, ⟨20, _⟩ => ⟨S3200000, .i32⟩
  | .hbm, ⟨21, _⟩ => ⟨S_, .f32⟩
  | .hbm, ⟨22, _⟩ => ⟨S3200000, .f32⟩
  | .hbm, ⟨23, _⟩ => ⟨S_, .f32⟩
  | .hbm, ⟨24, _⟩ => ⟨S100000, .f32⟩
  | .hbm, ⟨25, _⟩ => ⟨S3200000x1, .i32⟩
  | .hbm, ⟨26, _⟩ => ⟨S100000, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S100000, .f32⟩
  | .hbm, ⟨31, _⟩ => ⟨S128x64, .f32⟩
  | .hbm, ⟨32, _⟩ => ⟨S100000x1, .f32⟩
  | .hbm, ⟨33, _⟩ => ⟨S100000x64, .f32⟩
  | .hbm, ⟨34, _⟩ => ⟨S_, .i32⟩
  | .hbm, ⟨35, _⟩ => ⟨S3200000, .i32⟩
  | .hbm, ⟨36, _⟩ => ⟨S3200000, .i1⟩
  | .hbm, ⟨37, _⟩ => ⟨S_, .i32⟩
  | .hbm, ⟨38, _⟩ => ⟨S3200000, .i32⟩
  | .hbm, ⟨39, _⟩ => ⟨S3200000, .i32⟩
  | .hbm, ⟨40, _⟩ => ⟨S3200000, .i32⟩
  | .hbm, ⟨41, _⟩ => ⟨S3200000x1, .i32⟩
  | .hbm, ⟨42, _⟩ => ⟨S3200000x64, .f32⟩
  | .hbm, ⟨43, _⟩ => ⟨S_, .f32⟩
  | .hbm, ⟨44, _⟩ => ⟨S100000x64, .f32⟩
  | .hbm, ⟨45, _⟩ => ⟨S3200000x1, .i32⟩
  | .hbm, ⟨46, _⟩ => ⟨S100000x64, .f32⟩
  | .hbm, ⟨47, _⟩ => ⟨S_, .f32⟩
  | .hbm, ⟨48, _⟩ => ⟨S64, .f32⟩
  | .hbm, ⟨49, _⟩ => ⟨S64, .f32⟩
  | .hbm, ⟨50, _⟩ => ⟨S64, .f32⟩
  | .hbm, ⟨51, _⟩ => ⟨S64, .f32⟩
  | .hbm, ⟨52, _⟩ => ⟨S64, .f32⟩
  | .hbm, ⟨53, _⟩ => ⟨S64, .f32⟩
  | .hbm, ⟨54, _⟩ => ⟨S64, .f32⟩
  | .hbm, ⟨55, _⟩ => ⟨S64x64, .f32⟩
  | .hbm, ⟨56, _⟩ => ⟨S100000x1, .f32⟩
  | .hbm, ⟨57, _⟩ => ⟨S1x64, .f32⟩
  | .hbm, ⟨58, _⟩ => ⟨S1x64, .f32⟩
  | .hbm, ⟨59, _⟩ => ⟨S100000x64, .f32⟩
  | .hbm, ⟨60, _⟩ => ⟨S_, .i32⟩
  | .hbm, ⟨61, _⟩ => ⟨S3200000, .i32⟩
  | .hbm, ⟨62, _⟩ => ⟨S3200000, .i1⟩
  | .hbm, ⟨63, _⟩ => ⟨S_, .i32⟩
  | .hbm, ⟨64, _⟩ => ⟨S3200000, .i32⟩
  | .hbm, ⟨65, _⟩ => ⟨S3200000, .i32⟩
  | .hbm, ⟨66, _⟩ => ⟨S3200000, .i32⟩
  | .hbm, ⟨67, _⟩ => ⟨S3200000x1, .i32⟩
  | .hbm, ⟨68, _⟩ => ⟨S3200000x64, .f32⟩
  | .hbm, ⟨69, _⟩ => ⟨S_, .f32⟩
  | .hbm, ⟨70, _⟩ => ⟨S100000x64, .f32⟩
  | .hbm, ⟨71, _⟩ => ⟨S3200000x1, .i32⟩
  | .hbm, ⟨72, _⟩ => ⟨S100000x64, .f32⟩
  | .hbm, ⟨73, _⟩ => ⟨S_, .f32⟩
  | .hbm, ⟨74, _⟩ => ⟨S64, .f32⟩
  | .hbm, ⟨75, _⟩ => ⟨S64, .f32⟩
  | .hbm, ⟨76, _⟩ => ⟨S64, .f32⟩
  | .hbm, ⟨77, _⟩ => ⟨S64, .f32⟩
  | .hbm, ⟨78, _⟩ => ⟨S64, .f32⟩
  | .hbm, ⟨79, _⟩ => ⟨S64, .f32⟩
  | .hbm, ⟨80, _⟩ => ⟨S64, .f32⟩
  | .hbm, ⟨81, _⟩ => ⟨S100000x1, .f32⟩
  | .hbm, ⟨82, _⟩ => ⟨S1x64, .f32⟩
  | .hbm, ⟨83, _⟩ => ⟨S1x64, .f32⟩
  | .hbm, ⟨84, _⟩ => ⟨S100000x1, .i32⟩
  | .hbm, ⟨85, _⟩ => ⟨S64x1, .f32⟩
  | .hbm, ⟨86, _⟩ => ⟨S1x1, .f32⟩
  | .hbm, ⟨87, _⟩ => ⟨S256x1, .f32⟩
  | .hbm, ⟨88, _⟩ => ⟨S200x1, .f32⟩
  | .local _ .vmem, ⟨0, _⟩ => ⟨S2000x128, .f32⟩
  | .local _ .vmem, ⟨1, _⟩ => ⟨S2000x128, .f32⟩
  | .local _ .vmem, ⟨2, _⟩ => ⟨S128x64, .f32⟩
  | .local _ .vmem, ⟨3, _⟩ => ⟨S2000x1, .f32⟩
  | .local _ .vmem, ⟨4, _⟩ => ⟨S2000x1, .f32⟩
  | .local _ .vmem, ⟨5, _⟩ => ⟨S2000x64, .f32⟩
  | .local _ .vmem, ⟨6, _⟩ => ⟨S2000x64, .f32⟩
  | .local _ .vmem, ⟨7, _⟩ => ⟨S2000x64, .f32⟩
  | .local _ .vmem, ⟨8, _⟩ => ⟨S2000x64, .f32⟩
  | .local _ .vmem, ⟨9, _⟩ => ⟨S2000x64, .f32⟩
  | .local _ .vmem, ⟨10, _⟩ => ⟨S2000x64, .f32⟩
  | .local _ .vmem, ⟨11, _⟩ => ⟨S2000x1, .f32⟩
  | .local _ .vmem, ⟨12, _⟩ => ⟨S2000x1, .f32⟩
  | .local _ .vmem, ⟨13, _⟩ => ⟨S1x64, .f32⟩
  | .local _ .vmem, ⟨14, _⟩ => ⟨S1x64, .f32⟩
  | .local _ .vmem, ⟨15, _⟩ => ⟨S64x64, .f32⟩
  | .local _ .vmem, ⟨16, _⟩ => ⟨S2000x64, .f32⟩
  | .local _ .vmem, ⟨17, _⟩ => ⟨S2000x64, .f32⟩
  | .local _ .vmem, ⟨18, _⟩ => ⟨S2000x64, .f32⟩
  | .local _ .vmem, ⟨19, _⟩ => ⟨S2000x64, .f32⟩
  | .local _ .vmem, ⟨20, _⟩ => ⟨S2000x64, .f32⟩
  | .local _ .vmem, ⟨21, _⟩ => ⟨S2000x64, .f32⟩
  | .local _ .vmem, ⟨22, _⟩ => ⟨S2000x1, .f32⟩
  | .local _ .vmem, ⟨23, _⟩ => ⟨S2000x1, .f32⟩
  | .local _ .vmem, ⟨24, _⟩ => ⟨S1x64, .f32⟩
  | .local _ .vmem, ⟨25, _⟩ => ⟨S1x64, .f32⟩
  | .local _ .vmem, ⟨26, _⟩ => ⟨S2000x1, .i32⟩
  | .local _ .vmem, ⟨27, _⟩ => ⟨S2000x1, .i32⟩
  | .local _ .vmem, ⟨28, _⟩ => ⟨S64x1, .f32⟩
  | .local _ .vmem, ⟨29, _⟩ => ⟨S1x1, .f32⟩
  | .local _ .vmem, ⟨30, _⟩ => ⟨S256x1, .f32⟩
  | .local _ .vmem, ⟨31, _⟩ => ⟨S256x64, .f32⟩
  | .local _ .vmem, ⟨32, _⟩ => ⟨S256x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_cst : Ref sig .tc := ⟨.hbm, 21, rfl⟩
abbrev main_v4 : Ref sig .tc := ⟨.hbm, 22, rfl⟩
abbrev main_cst_0 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_cst_1 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_c : Ref sig .tc := ⟨.hbm, 34, rfl⟩
abbrev main_v14 : Ref sig .tc := ⟨.hbm, 35, rfl⟩
abbrev main_v15 : Ref sig .tc := ⟨.hbm, 36, rfl⟩
abbrev main_c_2 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_cst_3 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_cst_4 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_c_5 : Ref sig .tc := ⟨.hbm, 60, rfl⟩
abbrev main_v36 : Ref sig .tc := ⟨.hbm, 61, rfl⟩
abbrev main_v37 : Ref sig .tc := ⟨.hbm, 62, rfl⟩
abbrev main_c_6 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_cst_7 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_cst_8 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg6_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg5_1 : Ref sig .tc := ⟨.vmem, 27, rfl⟩
abbrev cc2_stg6_0 : Ref sig .tc := ⟨.vmem, 28, rfl⟩
abbrev cc2_stg7_0 : Ref sig .tc := ⟨.vmem, 29, rfl⟩
abbrev cc2_stg8_0 : Ref sig .tc := ⟨.vmem, 30, rfl⟩
abbrev cc2_scratch0 : Ref sig .tc := ⟨.vmem, 31, rfl⟩
abbrev cc2_scratch1 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem6_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23
abbrev cc2_sem3_0 : DmaSem sig := 24
abbrev cc2_sem4_0 : DmaSem sig := 25
abbrev cc2_sem5_0 : DmaSem sig := 26
abbrev cc2_sem5_1 : DmaSem sig := 27
abbrev cc2_sem6_0 : DmaSem sig := 28
abbrev cc2_sem7_0 : DmaSem sig := 29
abbrev cc2_sem8_0 : DmaSem sig := 30

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![50], ![false]⟩

def k2_cond2 (i : grid2.Coords) : BitVec 1 :=
  let arg0 : BitVec 32 := BitVec.ofNat 32 (i 0).val
  let c49_i32 : BitVec 32 := 49#32
  let v44 : BitVec 1 := Scalar.cmpi .eq arg0 c49_i32
  let v45 : BitVec 32 := Scalar.extui v44
  let c0_i32_23 : BitVec 32 := 0#32
  let v46 : BitVec 1 := Scalar.cmpi .ne v45 c0_i32_23
  v46

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x1 .i32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 1 → Memref sig .tc .vmem S64x1 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x1 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S256x1 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  transposes_S64x128_S128x64_1_0 : S64x128.Transposes [1, 0] S128x64
  shapeCasts_S100000_S100000x1 : S100000.ShapeCasts S100000x1
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x64 : S2000x1.Broadcasts S2000x64
  inb_S2000x64_S2000x64_0_0 : ∀ a, (![0, 0] : Fin 2 → Nat) a + S2000x64.size a ≤ S2000x64.size a
  h_S2000x64 : 0 < S2000x64.numel
  bcast_S_S100000x64 : S_.BroadcastsInDim S100000x64 (![] : Fin 0 → Fin S100000x64.rank)
  bcast_S_S64 : S_.BroadcastsInDim S64 (![] : Fin 0 → Fin S64.rank)
  transposes_S64x64_S64x64_1_0 : S64x64.Transposes [1, 0] S64x64
  shapeCasts_S64_S1x64 : S64.ShapeCasts S1x64
  shapeCasts_S2000x64_S2000x64 : S2000x64.ShapeCasts S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  transposes_S1x64_S64x1_1_0 : S1x64.Transposes [1, 0] S64x1
  shapeCasts_S1_S1x1 : S1.ShapeCasts S1x1
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S256x1_S256x1_0_0 : ∀ a, (![0, 0] : Fin 2 → Nat) a + S256x1.size a ≤ S256x1.size a
  h_S256x1 : 0 < S256x1.numel
  shapeCasts_S256x1_S256x1 : S256x1.ShapeCasts S256x1
  iota_S2000x256_d1_w32 : S2000x256.Iotas .tc 32 [1]
  broadcasts_S2000x1_S2000x256 : S2000x1.Broadcasts S2000x256
  natLt_1_32 : 1 < 32
  broadcasts_S256x1_S256x64 : S256x1.Broadcasts S256x64
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S256x1 : S1x1.Broadcasts S256x1
  slices_S256x1_S200x1_0_0 : S256x1.Slices ![0, 0] S200x1
  scatter_S100000_S3200000x1_S3200000_n_0_0_1_wf : ScatterDims.WF S100000 S3200000x1 S3200000 [] [0] [0] 1
  dot_S2000x128_S128x64_S2000x64_1_0_0_1_n_n_wf : DotDims.WF S2000x128 S128x64 S2000x64 [1] [0] [0] [1] [] []
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S2000x64_S64x64_S2000x64_1_0_0_1_n_n_wf : DotDims.WF S2000x64 S64x64 S2000x64 [1] [0] [0] [1] [] []
  dot_S2000x256_S2000x64_S256x64_0_0_1_1_n_n_wf : DotDims.WF S2000x256 S2000x64 S256x64 [0] [0] [1] [1] [] []
  dot_S2000x256_S2000x1_S256x1_0_0_1_1_n_n_wf : DotDims.WF S2000x256 S2000x1 S256x1 [0] [0] [1] [1] [] []
  dot_S256x64_S64x1_S256x1_1_0_0_1_n_n_wf : DotDims.WF S256x64 S64x1 S256x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S100000x1.size a
  hwx0_2 : ∀ i : grid0.Coords, EltTy.bits .f32 = 32 ∨ (Rect.block (s := S100000x1) S2000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x64.size a ≤ S100000x64.size a
  hwx0_3 : ∀ i : grid0.Coords, EltTy.bits .f32 = 32 ∨ (Rect.block (s := S100000x64) S2000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S100000x64.size a
  hwx1_0 : ∀ i : grid1.Coords, EltTy.bits .f32 = 32 ∨ (Rect.block (s := S100000x64) S2000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x64.size a ≤ S100000x64.size a
  hwx1_1 : ∀ i : grid1.Coords, EltTy.bits .f32 = 32 ∨ (Rect.block (s := S100000x64) S2000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S100000x1.size a
  hwx1_2 : ∀ i : grid1.Coords, EltTy.bits .f32 = 32 ∨ (Rect.block (s := S100000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x64.size a ≤ S64x64.size a
  hwx1_5 : ∀ i : grid1.Coords, EltTy.bits .f32 = 32 ∨ (Rect.block (s := S64x64) S64x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x64.size a ≤ S100000x64.size a
  hwx1_6 : ∀ i : grid1.Coords, EltTy.bits .f32 = 32 ∨ (Rect.block (s := S100000x64) S2000x64.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S100000x64.size a
  hwx2_0 : ∀ i : grid2.Coords, EltTy.bits .f32 = 32 ∨ (Rect.block (s := S100000x64) S2000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x64.size a ≤ S100000x64.size a
  hwx2_1 : ∀ i : grid2.Coords, EltTy.bits .f32 = 32 ∨ (Rect.block (s := S100000x64) S2000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x1.size a ≤ S100000x1.size a
  hwx2_2 : ∀ i : grid2.Coords, EltTy.bits .f32 = 32 ∨ (Rect.block (s := S100000x1) S2000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x1.size a ≤ S100000x1.size a
  hwx2_5 : ∀ i : grid2.Coords, EltTy.bits .i32 = 32 ∨ (Rect.block (s := S100000x1) S2000x1.size (cc2_transform_5 i) (hinb2_5 i)).WholeWords (EltTy.packing .i32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S64x1.size a ≤ S64x1.size a
  hwx2_6 : ∀ i : grid2.Coords, EltTy.bits .f32 = 32 ∨ (Rect.block (s := S64x1) S64x1.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x1.size a ≤ S1x1.size a
  hwx2_7 : ∀ i : grid2.Coords, EltTy.bits .f32 = 32 ∨ (Rect.block (s := S1x1) S1x1.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S256x1.size a ≤ S256x1.size a
  hwx2_8 : ∀ i : grid2.Coords, EltTy.bits .f32 = 32 ∨ (Rect.block (s := S256x1) S256x1.size (cc2_transform_8 i) (hinb2_8 i)).WholeWords (EltTy.packing .f32)

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def dot_S2000x256_S2000x64_S256x64_0_0_1_1_n_n : DotDims S2000x256 S2000x64 S256x64 where
  lhsContracting := [0]
  rhsContracting := [0]
  lhsNonContracting := [1]
  rhsNonContracting := [1]
  lhsBatch := []
  rhsBatch := []
  wf := dot_S2000x256_S2000x64_S256x64_0_0_1_1_n_n_wf
def dot_S2000x256_S2000x1_S256x1_0_0_1_1_n_n : DotDims S2000x256 S2000x1 S256x1 where
  lhsContracting := [0]
  rhsContracting := [0]
  lhsNonContracting := [1]
  rhsNonContracting := [1]
  lhsBatch := []
  rhsBatch := []
  wf := dot_S2000x256_S2000x1_S256x1_0_0_1_1_n_n_wf
def dot_S256x64_S64x1_S256x1_1_0_0_1_n_n : DotDims S256x64 S64x1 S256x1 where
  lhsContracting := [1]
  rhsContracting := [0]
  lhsNonContracting := [0]
  rhsNonContracting := [1]
  lhsBatch := []
  rhsBatch := []
  wf := dot_S256x64_S64x1_S256x1_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v13) S2000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v23) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S2000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v32) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v33) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v34) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v31) S64x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v35) S2000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v45) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v35) S2000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v53) S2000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v54) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v55) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v56) S2000x1.size cc2_transform_5 reads2_5 false false 2 stage2_5 sem2_5
    hrank2 hreads2_5 hinb2_5 nbuf2_5 (Memref.isWhole_whole _) hwx2_5 hstage2_5

abbrev win2_6 : Pipeline.Window sig grid2 :=
  Pipeline.Window.ofSpec (Memref.whole main_v57) S64x1.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v58) S1x1.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v59) S256x1.size cc2_transform_8 reads2_8 true true 1 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

abbrev idle2 : Fin 9 → grid2.Coords → Bool := fun | 0 => fun _ => false | 1 => fun _ => false | 2 => fun _ => false | 3 => fun _ => false | 4 => fun _ => false | 5 => fun _ => false | 6 => fun _ => false | 7 => fun _ => false | 8 => fun i => !(k2_cond2 i == 1#1) | ⟨_ + 9, h⟩ => absurd h (Nat.not_lt.2 (Nat.le_add_left _ _))

class Facts : Prop extends Facts₀ where

variable [Facts]
-- ==== ReferenceIdeal.lean ====
abbrev S100000x128 : Shape := ⟨2, ![100000, 128]⟩
abbrev S2x3200000 : Shape := ⟨2, ![2, 3200000]⟩
abbrev S100000 : Shape := ⟨1, ![100000]⟩
abbrev S64x128 : Shape := ⟨2, ![64, 128]⟩
abbrev S64 : Shape := ⟨1, ![64]⟩
abbrev S64x64 : Shape := ⟨2, ![64, 64]⟩
abbrev S1x64 : Shape := ⟨2, ![1, 64]⟩
abbrev S1 : Shape := ⟨1, ![1]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S128x64 : Shape := ⟨2, ![128, 64]⟩
abbrev S100000x64 : Shape := ⟨2, ![100000, 64]⟩
abbrev S3200000x64 : Shape := ⟨2, ![3200000, 64]⟩
abbrev S100000x1 : Shape := ⟨2, ![100000, 1]⟩
abbrev S200x64 : Shape := ⟨2, ![200, 64]⟩
abbrev S200 : Shape := ⟨1, ![200]⟩
abbrev S200x1 : Shape := ⟨2, ![200, 1]⟩
abbrev S64x1 : Shape := ⟨2, ![64, 1]⟩
abbrev S1x1 : Shape := ⟨2, ![1, 1]⟩

abbrev nBuf : Space → Nat
  | .hbm => 176
  | .vmem => 0
  | .smem => 0
  | _ => 0

abbrev hbmTy0_0 (i : Nat) : BufTy := match i % 128 with
  | 0 => ⟨S100000x128, .f32⟩
  | 1 => ⟨S2x3200000, .i32⟩
  | 2 => ⟨S100000, .i32⟩
  | 3 => ⟨S64x128, .f32⟩
  | 4 => ⟨S64, .f32⟩
  | 5 => ⟨S64, .f32⟩
  | 6 => ⟨S64, .f32⟩
  | 7 => ⟨S64, .f32⟩
  | 8 => ⟨S64, .f32⟩
  | 9 => ⟨S64x64, .f32⟩
  | 10 => ⟨S64, .f32⟩
  | 11 => ⟨S64, .f32⟩
  | 12 => ⟨S64, .f32⟩
  | 13 => ⟨S64, .f32⟩
  | 14 => ⟨S64, .f32⟩
  | 15 => ⟨S1x64, .f32⟩
  | 16 => ⟨S1, .f32⟩
  | 17 => ⟨S1x3200000, .i32⟩
  | 18 => ⟨S3200000, .i32⟩
  | 19 => ⟨S1x3200000, .i32⟩
  | 20 => ⟨S3200000, .i32⟩
  | 21 => ⟨S_, .f32⟩
  | 22 => ⟨S3200000, .f32⟩
  | 23 => ⟨S_, .f32⟩
  | 24 => ⟨S100000, .f32⟩
  | 25 => ⟨S3200000x1, .i32⟩
  | 26 => ⟨S100000, .f32⟩
  | 27 => ⟨S_, .f32⟩
  | 28 => ⟨S100000, .f32⟩
  | 29 => ⟨S100000, .f32⟩
  | 30 => ⟨S100000, .f32⟩
  | 31 => ⟨S128x64, .f32⟩
  | 32 => ⟨S100000x64, .f32⟩
  | 33 => ⟨S_, .i32⟩
  | 34 => ⟨S3200000, .i32⟩
  | 35 => ⟨S3200000, .i1⟩
  | 36 => ⟨S_, .i32⟩
  | 37 => ⟨S3200000, .i32⟩
  | 38 => ⟨S3200000, .i32⟩
  | 39 => ⟨S3200000, .i32⟩
  | 40 => ⟨S3200000x1, .i32⟩
  | 41 => ⟨S3200000, .f32⟩
  | 42 => ⟨S_, .i32⟩
  | 43 => ⟨S3200000, .i32⟩
  | 44 => ⟨S3200000, .i1⟩
  | 45 => ⟨S_, .i32⟩
  | 46 => ⟨S3200000, .i32⟩
  | 47 => ⟨S3200000, .i32⟩
  | 48 => ⟨S3200000, .i32⟩
  | 49 => ⟨S3200000x1, .i32⟩
  | 50 => ⟨S3200000, .f32⟩
  | 51 => ⟨S3200000, .f32⟩
  | 52 => ⟨S3200000x1, .f32⟩
  | 53 => ⟨S_, .i32⟩
  | 54 => ⟨S3200000, .i32⟩
  | 55 => ⟨S3200000, .i1⟩
  | 56 => ⟨S_, .i32⟩
  | 57 => ⟨S3200000, .i32⟩
  | 58 => ⟨S3200000, .i32⟩
  | 59 => ⟨S3200000, .i32⟩
  | 60 => ⟨S3200000x1, .i32⟩
  | 61 => ⟨S3200000x64, .f32⟩
  | 62 => ⟨S3200000x64, .f32⟩
  | 63 => ⟨S3200000x64, .f32⟩
  | 64 => ⟨S_, .f32⟩
  | 65 => ⟨S100000x64, .f32⟩
  | 66 => ⟨S3200000x1, .i32⟩
  | 67 => ⟨S100000x64, .f32⟩
  | 68 => ⟨S100000, .f32⟩
  | 69 => ⟨S100000x1, .f32⟩
  | 70 => ⟨S100000x64, .f32⟩
  | 71 => ⟨S100000x64, .f32⟩
  | 72 => ⟨S100000x64, .f32⟩
  | 73 => ⟨S1x64, .f32⟩
  | 74 => ⟨S100000x64, .f32⟩
  | 75 => ⟨S100000x64, .f32⟩
  | 76 => ⟨S1x64, .f32⟩
  | 77 => ⟨S100000x64, .f32⟩
  | 78 => ⟨S100000x64, .f32⟩
  | 79 => ⟨S_, .f32⟩
  | 80 => ⟨S64, .f32⟩
  | 81 => ⟨S64, .f32⟩
  | 82 => ⟨S64, .f32⟩
  | 83 => ⟨S64, .f32⟩
  | 84 => ⟨S1x64, .f32⟩
  | 85 => ⟨S100000x64, .f32⟩
  | 86 => ⟨S100000x64, .f32⟩
  | 87 => ⟨S1x64, .f32⟩
  | 88 => ⟨S100000x64, .f32⟩
  | 89 => ⟨S100000x64, .f32⟩
  | 90 => ⟨S_, .f32⟩
  | 91 => ⟨S100000x64, .f32⟩
  | 92 => ⟨S100000x64, .f32⟩
  | 93 => ⟨S64x64, .f32⟩
  | 94 => ⟨S100000x64, .f32⟩
  | 95 => ⟨S_, .i32⟩
  | 96 => ⟨S3200000, .i32⟩
  | 97 => ⟨S3200000, .i1⟩
  | 98 => ⟨S_, .i32⟩
  | 99 => ⟨S3200000, .i32⟩
  | 100 => ⟨S3200000, .i32⟩
  | 101 => ⟨S3200000, .i32⟩
  | 102 => ⟨S3200000x1, .i32⟩
  | 103 => ⟨S3200000, .f32⟩
  | 104 => ⟨S_, .i32⟩
  | 105 => ⟨S3200000, .i32⟩
  | 106 => ⟨S3200000, .i1⟩
  | 107 => ⟨S_, .i32⟩
  | 108 => ⟨S3200000, .i32⟩
  | 109 => ⟨S3200000, .i32⟩
  | 110 => ⟨S3200000, .i32⟩
  | 111 => ⟨S3200000x1, .i32⟩
  | 112 => ⟨S3200000, .f32⟩
  | 113 => ⟨S3200000, .f32⟩
  | 114 => ⟨S3200000x1, .f32⟩
  | 115 => ⟨S_, .i32⟩
  | 116 => ⟨S3200000, .i32⟩
  | 117 => ⟨S3200000, .i1⟩
  | 118 => ⟨S_, .i32⟩
  | 119 => ⟨S3200000, .i32⟩
  | 120 => ⟨S3200000, .i32⟩
  | 121 => ⟨S3200000, .i32⟩
  | 122 => ⟨S3200000x1, .i32⟩
  | 123 => ⟨S3200000x64, .f32⟩
  | 124 => ⟨S3200000x64, .f32⟩
  | 125 => ⟨S3200000x64, .f32⟩
  | 126 => ⟨S_, .f32⟩
  | 127 => ⟨S100000x64, .f32⟩
  | _ => ⟨S100000x128, .f32⟩

abbrev hbmTy0_1 (i : Nat) : BufTy := match i % 128 with
  | 0 => ⟨S3200000x1, .i32⟩
  | 1 => ⟨S100000x64, .f32⟩
  | 2 => ⟨S100000, .f32⟩
  | 3 => ⟨S100000x1, .f32⟩
  | 4 => ⟨S100000x64, .f32⟩
  | 5 => ⟨S100000x64, .f32⟩
  | 6 => ⟨S100000x64, .f32⟩
  | 7 => ⟨S1x64, .f32⟩
  | 8 => ⟨S100000x64, .f32⟩
  | 9 => ⟨S100000x64, .f32⟩
  | 10 => ⟨S1x64, .f32⟩
  | 11 => ⟨S100000x64, .f32⟩
  | 12 => ⟨S100000x64, .f32⟩
  | 13 => ⟨S_, .f32⟩
  | 14 => ⟨S64, .f32⟩
  | 15 => ⟨S64, .f32⟩
  | 16 => ⟨S64, .f32⟩
  | 17 => ⟨S64, .f32⟩
  | 18 => ⟨S1x64, .f32⟩
  | 19 => ⟨S100000x64, .f32⟩
  | 20 => ⟨S100000x64, .f32⟩
  | 21 => ⟨S1x64, .f32⟩
  | 22 => ⟨S100000x64, .f32⟩
  | 23 => ⟨S100000x64, .f32⟩
  | 24 => ⟨S_, .f32⟩
  | 25 => ⟨S100000x64, .f32⟩
  | 26 => ⟨S100000x64, .f32⟩
  | 27 => ⟨S_, .f32⟩
  | 28 => ⟨S200x64, .f32⟩
  | 29 => ⟨S100000x1, .i32⟩
  | 30 => ⟨S200x64, .f32⟩
  | 31 => ⟨S_, .f32⟩
  | 32 => ⟨S100000, .f32⟩
  | 33 => ⟨S_, .f32⟩
  | 34 => ⟨S200, .f32⟩
  | 35 => ⟨S100000x1, .i32⟩
  | 36 => ⟨S200, .f32⟩
  | 37 => ⟨S_, .f32⟩
  | 38 => ⟨S200, .f32⟩
  | 39 => ⟨S200, .f32⟩
  | 40 => ⟨S200x1, .f32⟩
  | 41 => ⟨S200x64, .f32⟩
  | 42 => ⟨S200x64, .f32⟩
  | 43 => ⟨S64x1, .f32⟩
  | 44 => ⟨S200x1, .f32⟩
  | 45 => ⟨S1x1, .f32⟩
  | 46 => ⟨S200x1, .f32⟩
  | 47 => ⟨S200x1, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_cst : Ref sig .tc := ⟨.hbm, 21, rfl⟩
abbrev main_v4 : Ref sig .tc := ⟨.hbm, 22, rfl⟩
abbrev main_cst_0 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_cst_1 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_c : Ref sig .tc := ⟨.hbm, 33, rfl⟩
abbrev main_v13 : Ref sig .tc := ⟨.hbm, 34, rfl⟩
abbrev main_v14 : Ref sig .tc := ⟨.hbm, 35, rfl⟩
abbrev main_c_2 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_c_3 : Ref sig .tc := ⟨.hbm, 42, rfl⟩
abbrev main_v20 : Ref sig .tc := ⟨.hbm, 43, rfl⟩
abbrev main_v21 : Ref sig .tc := ⟨.hbm, 44, rfl⟩
abbrev main_c_4 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_c_5 : Ref sig .tc := ⟨.hbm, 53, rfl⟩
abbrev main_v29 : Ref sig .tc := ⟨.hbm, 54, rfl⟩
abbrev main_v30 : Ref sig .tc := ⟨.hbm, 55, rfl⟩
abbrev main_c_6 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_cst_7 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_cst_8 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_call0_cst : Ref sig .tc := ⟨.hbm, 90, rfl⟩
abbrev main_call0_v0 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_c_9 : Ref sig .tc := ⟨.hbm, 95, rfl⟩
abbrev main_v65 : Ref sig .tc := ⟨.hbm, 96, rfl⟩
abbrev main_v66 : Ref sig .tc := ⟨.hbm, 97, rfl⟩
abbrev main_c_10 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_c_11 : Ref sig .tc := ⟨.hbm, 104, rfl⟩
abbrev main_v72 : Ref sig .tc := ⟨.hbm, 105, rfl⟩
abbrev main_v73 : Ref sig .tc := ⟨.hbm, 106, rfl⟩
abbrev main_c_12 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_c_13 : Ref sig .tc := ⟨.hbm, 115, rfl⟩
abbrev main_v81 : Ref sig .tc := ⟨.hbm, 116, rfl⟩
abbrev main_v82 : Ref sig .tc := ⟨.hbm, 117, rfl⟩
abbrev main_c_14 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_cst_15 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_cst_16 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_call1_cst : Ref sig .tc := ⟨.hbm, 152, rfl⟩
abbrev main_call1_v0 : Ref sig .tc := ⟨.hbm, 153, rfl⟩
abbrev main_v114 : Ref sig .tc := ⟨.hbm, 154, rfl⟩
abbrev main_cst_17 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_cst_18 : Ref sig .tc := ⟨.hbm, 159, rfl⟩
abbrev main_v118 : Ref sig .tc := ⟨.hbm, 160, rfl⟩
abbrev main_cst_19 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_cst_20 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  transposes_S64x128_S128x64_1_0 : S64x128.Transposes [1, 0] S128x64
  bcast_S3200000x1_S3200000x64_0_1 : S3200000x1.BroadcastsInDim S3200000x64 (![0, 1] : Fin 2 → Fin S3200000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S64 : S_.BroadcastsInDim S64 (![] : Fin 0 → Fin S64.rank)
  transposes_S64x64_S64x64_1_0 : S64x64.Transposes [1, 0] S64x64
  bcast_S_S200x64 : S_.BroadcastsInDim S200x64 (![] : Fin 0 → Fin S200x64.rank)
  bcast_S_S200 : S_.BroadcastsInDim S200 (![] : Fin 0 → Fin S200.rank)
  bcast_S200_S200x1_0 : S200.BroadcastsInDim S200x1 (![0] : Fin 1 → Fin S200x1.rank)
  bcast_S200x1_S200x64_0_1 : S200x1.BroadcastsInDim S200x64 (![0, 1] : Fin 2 → Fin S200x64.rank)
  transposes_S1x64_S64x1_1_0 : S1x64.Transposes [1, 0] S64x1
  bcast_S1_S1x1_1 : S1.BroadcastsInDim S1x1 (![1] : Fin 1 → Fin S1x1.rank)
  bcast_S1x1_S200x1_0_1 : S1x1.BroadcastsInDim S200x1 (![0, 1] : Fin 2 → Fin S200x1.rank)
  scatter_S100000_S3200000x1_S3200000_n_0_0_1_wf : ScatterDims.WF S100000 S3200000x1 S3200000 [] [0] [0] 1
  dot_S100000x128_S128x64_S100000x64_1_0_0_1_n_n_wf : DotDims.WF S100000x128 S128x64 S100000x64 [1] [0] [0] [1] [] []
  gather_S100000_S3200000x1_S3200000_n_0_n_n_0_1_1_wf : GatherDims.WF S100000 S3200000x1 S3200000 [] [0] [] [0] [] 1 ![1]
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S100000x64_S64x64_S100000x64_1_0_0_1_n_n_wf : DotDims.WF S100000x64 S64x64 S100000x64 [1] [0] [0] [1] [] []
  scatter_S200x64_S100000x1_S100000x64_1_0_0_1_wf : ScatterDims.WF S200x64 S100000x1 S100000x64 [1] [0] [0] 1
  scatter_S200_S100000x1_S100000_n_0_0_1_wf : ScatterDims.WF S200 S100000x1 S100000 [] [0] [0] 1
  dot_S200x64_S64x1_S200x1_1_0_0_1_n_n_wf : DotDims.WF S200x64 S64x1 S200x1 [1] [0] [0] [1] [] []

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S200x64_S100000x1_S100000x64_1_0_0_1 : ScatterDims S200x64 S100000x1 S100000x64 where
  updateWindowDims := [1]
  insertedWindowDims := [0]
  scatterDimsToOperandDims := [0]
  indexVectorDim := 1
  wf := scatter_S200x64_S100000x1_S100000x64_1_0_0_1_wf
def scatter_S200_S100000x1_S100000_n_0_0_1 : ScatterDims S200 S100000x1 S100000 where
  updateWindowDims := []
  insertedWindowDims := [0]
  scatterDimsToOperandDims := [0]
  indexVectorDim := 1
  wf := scatter_S200_S100000x1_S100000_n_0_0_1_wf
def dot_S200x64_S64x1_S200x1_1_0_0_1_n_n : DotDims S200x64 S64x1 S200x1 where
  lhsContracting := [1]
  rhsContracting := [0]
  lhsNonContracting := [0]
  rhsNonContracting := [1]
  lhsBatch := []
  rhsBatch := []
  wf := dot_S200x64_S64x1_S200x1_1_0_0_1_n_n_wf

class Facts : Prop extends Facts₀ where

variable [Facts]
-- ==== Proof.K.Proj1.lean ====
import proofs.«404818_j7687991460117_2_alg».proof.Proof.Gen.Kernel.Launch
import proofs.«404818_j7687991460117_2_alg».proof.Proof.Gen.Kernel.Skeleton
import proofs.«404818_j7687991460117_2_alg».proof.Proof.Gen.Kernel.Points
import Idealize.ShloMosaic.Lib.Pipeline.Value
import Idealize.ShloMosaic.Lib.Pipeline.TableIdle

namespace Cert.Kernel.Proj1

open Gen
open Idealize.ShloMosaic Idealize.ShloMosaic.TcCoe
open Idealize.SL.RA Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

noncomputable def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

noncomputable abbrev whole : Rect S2000x64 := Rect.unit (s := S2000x64) ![0, 0] S2000x64.size inb_S2000x64_S2000x64_0_0

noncomputable def tile (x : Vec F S2000x128 .f32) (wt : Vec F S128x64 .f32) (dinv : Vec F S2000x1 .f32) : Vec F S2000x64 .f32 :=
  View.canon [⟨whole, k0_pay1 x wt dinv⟩]

noncomputable def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => blk V c 2 t
    | ⟨3, _⟩ => tile (blk V c 0 t) (blk V c 1 t) (blk V c 2 t)
  Φ _ := Pipeline.ΦA spec0 c
  q _ := fullShare
  owed _ := 0

theorem dat_A (c : Dev nD) (w : Fin cfg0.W) : (dat V c).A w = V c (Pipeline.arrRef spec0 w) := by dsimp only [dat]
theorem dat_after_out (c : Dev nD) (t : Fin cfg0.N) : (dat V c).after 3 t = tile (blk V c 0 t) (blk V c 1 t) (blk V c 2 t) := by dsimp only [dat]
theorem dat_phi_first (c : Dev nD) : (dat V c).Φ 0 = Pipeline.ΦA spec0 c := rfl
theorem dat_phi_last (c : Dev nD) : (dat V c).Φ (Fin.last _) ⊢ (Pipeline.ΦA spec0 c : sProp 𝕄) := .rfl

theorem holds (c : Dev nD) (t : Fin cfg0.N) : ∀ w, (cfg0.win w).isOut = false → ∀ d, (dat V c).before w t d = (dat V c).after w t := by
  intro w; fin_cases w <;> intro h d <;> first
    | exact absurd h (by decide)
    | exact ((dat V c).before_in_eq_fetched _ h (fun _ => rfl) (fun _ _ _ => rfl)
        (fun _ => rfl) t d).trans rfl

-- Every rectangle is its shape's whole extent at the origin: a load through it reads the operand, the store's canon is its payload.
theorem kernel_run {c : Dev nD} {E i a1 h1 a2 h2 a3 h3 a4 h4 x wt dinv d} {K : PUnit → sProp 𝕄} :
    iprop(owns c.tc a1 fullShare x ∗ owns c.tc a2 fullShare wt ∗ owns c.tc a3 fullShare dinv ∗ owns c.tc a4 fullShare d
        ∗ (iprop(owns c.tc a1 fullShare x ∗ owns c.tc a2 fullShare wt ∗ owns c.tc a3 fullShare dinv
            ∗ owns c.tc a4 fullShare (tile x wt dinv)) -∗ K ⟨⟩))
      ⊢ wp frame (wpE (defs₀ (F := F)) Variants.none c none) E (cc0__proj1_kernel i a1 h1 a2 h2 a3 h3 a4 h4) K := by
  have o : (![0, 0] : Fin 2 → ℕ) = fun _ => 0 := by decide
  simp only [cc0__proj1_kernel_eq_skeleton]; unfold cc0__proj1_kernel_skel
  iterate 3 rw [owns_eq_rep]
  unfold owns
  iintro ⟨H1, H2, H3, ⟨%f, -, H4⟩, Hk⟩
  sl_exec
  sl_step
  iapply Hk
  iframe
  iexists _; iframe
  ipureintro
  rw [View.read_writes_eq_canon _ _ _ fun y => ⟨_, List.mem_singleton_self _, View.mem_set_unit_zero o inb_S2000x64_S2000x64_0_0 y⟩]
  simp only [tile, View.readAt_eq_ld, View.read_rep, View.ld_unit_zero (S := S2000x128) o, View.ld_unit_zero (S := S128x64) o,
    View.ld_unit_zero (S := S2000x1) o]

theorem body (c : Dev nD) : BodyObligation (dat (F := F) V c) (defs₀ (F := F)) Variants.none () Set.univ := fun t => by
  rw [bigSep_W0, bigSep_W0]
  simp (disch := rfl) only [holds V c t]
  dsimp only [dat, Dat.owesAt, Dat.bound]
  iintro ⟨HΦ, Ho, ⟨%d0, H0⟩, ⟨%d1, H1⟩, ⟨%d2, H2⟩, ⟨%d3, H3⟩⟩
  sl_whnfR [defs₀, Defs.onTc]
  iapply kernel_run
  iframe
  iintro H
  iframe

end Cert.Kernel.Proj1
-- ==== Proof.K.NormProj2.lean ====
import proofs.«404818_j7687991460117_2_alg».proof.Proof.Gen.Kernel.Launch
import proofs.«404818_j7687991460117_2_alg».proof.Proof.Gen.Kernel.Skeleton
import proofs.«404818_j7687991460117_2_alg».proof.Proof.Gen.Kernel.Points
import Idealize.ShloMosaic.Lib.Pipeline.Value
import Idealize.ShloMosaic.Lib.Pipeline.TableIdle

namespace Cert.Kernel.NormProj2

open Gen
open Idealize.ShloMosaic Idealize.ShloMosaic.TcCoe
open Idealize.SL.RA Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

noncomputable def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

noncomputable abbrev whole : Rect S2000x64 := Rect.unit (s := S2000x64) ![0, 0] S2000x64.size inb_S2000x64_S2000x64_0_0

noncomputable def tile (agg hsc : Vec F S2000x64 .f32) (dinv : Vec F S2000x1 .f32) (scale shift : Vec F S1x64 .f32) (w2t : Vec F S64x64 .f32) :
    Vec F S2000x64 .f32 :=
  View.canon [⟨whole, k1_pay1 dinv agg hsc scale shift w2t⟩]

noncomputable def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => tile (blk V c 0 t) (blk V c 1 t) (blk V c 2 t) (blk V c 3 t) (blk V c 4 t) (blk V c 5 t)
  Φ _ := Pipeline.ΦA spec1 c
  q _ := fullShare
  owed _ := 0

theorem dat_A (c : Dev nD) (w : Fin cfg1.W) : (dat V c).A w = V c (Pipeline.arrRef spec1 w) := by dsimp only [dat]
theorem dat_after_out (c : Dev nD) (t : Fin cfg1.N) :
    (dat V c).after 6 t = tile (blk V c 0 t) (blk V c 1 t) (blk V c 2 t) (blk V c 3 t) (blk V c 4 t) (blk V c 5 t) := by dsimp only [dat]
theorem dat_phi_first (c : Dev nD) : (dat V c).Φ 0 = Pipeline.ΦA spec1 c := rfl
theorem dat_phi_last (c : Dev nD) : (dat V c).Φ (Fin.last _) ⊢ (Pipeline.ΦA spec1 c : sProp 𝕄) := .rfl

theorem holds (c : Dev nD) (t : Fin cfg1.N) : ∀ w, (cfg1.win w).isOut = false → ∀ d, (dat V c).before w t d = (dat V c).after w t := by
  intro w; fin_cases w <;> intro h d <;> first
    | exact absurd h (by decide)
    | exact ((dat V c).before_in_eq_fetched _ h (fun _ => rfl) (fun _ _ _ => rfl)
        (fun _ => rfl) t d).trans rfl

-- Every rectangle is its shape's whole extent at the origin: a load through it reads the operand, the store's canon is its payload.
theorem kernel_run {c : Dev nD} {E i a0 h0 a1 h1 a2 h2 a3 h3 a4 h4 a5 h5 a6 h6 agg hsc dinv scale shift w2t d} {K : PUnit → sProp 𝕄} :
    iprop(owns c.tc a0 fullShare agg ∗ owns c.tc a1 fullShare hsc ∗ owns c.tc a2 fullShare dinv ∗ owns c.tc a3 fullShare scale
        ∗ owns c.tc a4 fullShare shift ∗ owns c.tc a5 fullShare w2t ∗ owns c.tc a6 fullShare d
        ∗ (iprop(owns c.tc a0 fullShare agg ∗ owns c.tc a1 fullShare hsc ∗ owns c.tc a2 fullShare dinv ∗ owns c.tc a3 fullShare scale
            ∗ owns c.tc a4 fullShare shift ∗ owns c.tc a5 fullShare w2t ∗ owns c.tc a6 fullShare (tile agg hsc dinv scale shift w2t)) -∗ K ⟨⟩))
      ⊢ wp frame (wpE (defs₀ (F := F)) Variants.none c none) E (cc1__bn_proj2_kernel i a0 h0 a1 h1 a2 h2 a3 h3 a4 h4 a5 h5 a6 h6) K := by
  have o : (![0, 0] : Fin 2 → ℕ) = fun _ => 0 := by decide
  simp only [cc1__bn_proj2_kernel_eq_skeleton]; unfold cc1__bn_proj2_kernel_skel
  iterate 6 rw [owns_eq_rep]
  unfold owns
  iintro ⟨H0, H1, H2, H3, H4, H5, ⟨%f, -, H6⟩, Hk⟩
  sl_exec
  sl_step
  iapply Hk
  iframe
  iexists _; iframe
  ipureintro
  rw [View.read_writes_eq_canon _ _ _ fun y => ⟨_, List.mem_singleton_self _, View.mem_set_unit_zero o inb_S2000x64_S2000x64_0_0 y⟩]
  simp only [tile, View.readAt_eq_ld, View.read_rep, View.ld_unit_zero (S := S2000x64) o, View.ld_unit_zero (S := S2000x1) o,
    View.ld_unit_zero (S := S1x64) o, View.ld_unit_zero (S := S64x64) o]

theorem body (c : Dev nD) : BodyObligation (dat (F := F) V c) (defs₀ (F := F)) Variants.none () Set.univ := fun t => by
  rw [bigSep_W1, bigSep_W1]
  simp (disch := rfl) only [holds V c t]
  dsimp only [dat, Dat.owesAt, Dat.bound]
  iintro ⟨HΦ, Ho, ⟨%d0, H0⟩, ⟨%d1, H1⟩, ⟨%d2, H2⟩, ⟨%d3, H3⟩, ⟨%d4, H4⟩, ⟨%d5, H5⟩, ⟨%d6, H6⟩⟩
  sl_whnfR [defs₀, Defs.onTc]
  iapply kernel_run
  iframe
  iintro H
  iframe

end Cert.Kernel.NormProj2
-- ==== Proof.K.NormPool.lean ====
import proofs.«404818_j7687991460117_2_alg».proof.Proof.Gen.Kernel.Launch
import proofs.«404818_j7687991460117_2_alg».proof.Proof.Gen.Kernel.Skeleton
import proofs.«404818_j7687991460117_2_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic
import Idealize.ShloMosaic.Lib.Pipeline.Value
import Idealize.ShloMosaic.Lib.Pipeline.TableIdle

noncomputable section

namespace Cert.Kernel.NormPool

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

noncomputable def blk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

noncomputable abbrev sumsM : Memref sig .tc .vmem S256x64 .f32 := Memref.whole cc2_scratch0
noncomputable abbrev cntsM : Memref sig .tc .vmem S256x1 .f32 := Memref.whole cc2_scratch1

noncomputable abbrev wholeSums : Rect S256x64 := Rect.unit (s := S256x64) ![0, 0] S256x64.size inb_S256x64_S256x64_0_0
noncomputable abbrev wholeCnts : Rect S256x1 := Rect.unit (s := S256x1) ![0, 0] S256x1.size inb_S256x1_S256x1_0_0

noncomputable def sumsStep (c : Dev nD) (t : Fin cfg2.N) (s : Vec F S256x64 .f32) : Vec F S256x64 .f32 :=
  View.canon [⟨wholeSums, k2_pay1 (k2_pay8 (blk V c 2 t) (blk V c 0 t) (blk V c 1 t) (blk V c 3 t) (blk V c 4 t) (blk V c 5 t) s)⟩]

noncomputable def cntsStep (c : Dev nD) (t : Fin cfg2.N) (s : Vec F S256x1 .f32) : Vec F S256x1 .f32 :=
  View.canon [⟨wholeCnts, k2_pay2 (k2_pay6 (blk V c 5 t)) k2_pay7 s⟩]

noncomputable abbrev first : Fin cfg2.N := ⟨0, Nat.lt_of_lt_of_eq (by omega : 0 < 50) N_2.symm⟩

noncomputable def sumsAt (c : Dev nD) : ℕ → Vec F S256x64 .f32
  | 0 => sumsStep V c first (View.canon [⟨wholeSums, k2_pay4⟩])
  | n + 1 => if h : n + 1 < cfg2.N then sumsStep V c ⟨n + 1, h⟩ (sumsAt c n) else sumsAt c n

noncomputable def cntsAt (c : Dev nD) : ℕ → Vec F S256x1 .f32
  | 0 => cntsStep V c first (View.canon [⟨wholeCnts, k2_pay5⟩])
  | n + 1 => if h : n + 1 < cfg2.N then cntsStep V c ⟨n + 1, h⟩ (cntsAt c n) else cntsAt c n

noncomputable abbrev last : Fin cfg2.N := ⟨49, Nat.lt_of_lt_of_eq (by omega : 49 < 50) N_2.symm⟩

noncomputable def outTile (c : Dev nD) : Vec F S256x1 .f32 :=
  View.canon [⟨wholeCnts, k2_pay3 (sumsAt V c 49) (cntsAt V c 49) (blk V c 6 last) (blk V c 7 last)⟩]

-- A buffer held whole, at the full share, at contents `x`.
abbrev own (c : Dev nD) {sh : Shape} {e : EltTy} (m : Memref sig .tc .vmem sh e) (x : Vec F sh e) : sProp 𝕄 :=
  owns (c : Thread nD τ) m fullShare x

def others (c : Dev nD) : sProp 𝕄 := Pipeline.scopedRestBut spec2 c [cc2_scratch0, cc2_scratch1]

def inv (c : Dev nD) : ℕ → sProp 𝕄
  | 0 => Pipeline.ΦA spec2 c
  | n + 1 => iprop(((own c sumsM (sumsAt V c n) ∗ own c cntsM (cntsAt V c n)) ∗ others (F := F) c) ∗ ∃ r, prngReg c r)

noncomputable def dat (c : Dev nD) : Dat τ (Elt F) Unit ℕ (UR sig nD τ) ℕ cfg2 c where
  A w := V c (Pipeline.arrRef spec2 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => blk V c 6 t
    | ⟨7, _⟩ => blk V c 7 t
    | ⟨8, _⟩ => outTile V c
  Φ t := inv V c t.val
  q _ := fullShare
  owed _ := 0

theorem dat_A (c : Dev nD) (w : Fin cfg2.W) : (dat V c).A w = V c (Pipeline.arrRef spec2 w) := rfl
theorem dat_after_out (c : Dev nD) (t : Fin cfg2.N) : (dat V c).after 8 t = outTile V c := rfl
theorem dat_phi_first (c : Dev nD) : (dat V c).Φ 0 = Pipeline.ΦA spec2 c := rfl

noncomputable abbrev wholeTile : Rect S2000x64 := Rect.unit (s := S2000x64) ![0, 0] S2000x64.size inb_S2000x64_S2000x64_0_0
noncomputable abbrev wholeCol : Rect S2000x1 := Rect.unit (s := S2000x1) ![0, 0] S2000x1.size inb_S2000x1_S2000x1_0_0
noncomputable abbrev wholeRow : Rect S1x64 := Rect.unit (s := S1x64) ![0, 0] S1x64.size inb_S1x64_S1x64_0_0
noncomputable abbrev wholeHead : Rect S64x1 := Rect.unit (s := S64x1) ![0, 0] S64x1.size inb_S64x1_S64x1_0_0
noncomputable abbrev wholeBias : Rect S1x1 := Rect.unit (s := S1x1) ![0, 0] S1x1.size inb_S1x1_S1x1_0_0

theorem zz : (![0, 0] : Fin 2 → Nat) = fun _ => 0 := funext fun a => by fin_cases a <;> rfl

section
variable {sz : Fin 2 → Nat} {e : EltTy} (inb : ∀ a, (![0, 0] : Fin 2 → Nat) a + sz a ≤ sz a)

-- A load through the rectangle that is the whole buffer reads the contents.
theorem ld_zz (X : (⟨2, sz⟩ : Shape).Idx → Elt F e) : View.ld X (Rect.unit (s := ⟨2, sz⟩) ![0, 0] sz inb) = X :=
  View.ld_unit_zero (S := ⟨2, sz⟩) zz inb X

-- The last store through it is what is left, whatever was stored before.
theorem canon_zz (w : (⟨2, sz⟩ : Shape).Idx → Elt F e) (L : List (View.Piece (Elt F) ⟨2, sz⟩ e)) :
    View.canon ((⟨Rect.unit (s := ⟨2, sz⟩) ![0, 0] sz inb, w⟩ : View.Piece (Elt F) ⟨2, sz⟩ e) :: L) = w :=
  View.canon_cons_unit_zero (S := ⟨2, sz⟩) zz inb w L

-- So a buffer reads, after stores the last of which went through it, that store's payload.
theorem read_zz (v : View sig .tc .vmem ⟨2, sz⟩ e) (f : v.ty.Contents (Elt F)) (w : (⟨2, sz⟩ : Shape).Idx → Elt F e)
    (L : List (View.Piece (Elt F) ⟨2, sz⟩ e)) :
    v.read (Elt F) (v.writes (Elt F) f ((⟨Rect.unit (s := ⟨2, sz⟩) ![0, 0] sz inb, w⟩ : View.Piece (Elt F) ⟨2, sz⟩ e) :: L)) = w :=
  (View.read_writes_eq_canon _ _ _ fun y => ⟨_, List.mem_cons_self, View.mem_set_unit_zero (S := ⟨2, sz⟩) zz inb y⟩).trans
    (canon_zz inb w L)
end

abbrev atFirst (i : grid2.Coords) : Prop := (Scalar.cmpi .ne (Scalar.extui (Scalar.cmpi .eq (BitVec.ofNat 32 (i 0).val) 0#32)) 0#32) = 1#1
abbrev atLast (i : grid2.Coords) : Prop := k2_cond2 i = 1#1

theorem atFirst_iff : ∀ t : Fin cfg2.N, atFirst (grid2.coords t) ↔ t.val = 0 :=
  (by decide +kernel : ∀ t : Fin grid2.N, atFirst (grid2.coords t) ↔ t.val = 0)
theorem atLast_iff : ∀ t : Fin cfg2.N, atLast (grid2.coords t) ↔ t.val = 49 :=
  (by decide +kernel : ∀ t : Fin grid2.N, atLast (grid2.coords t) ↔ t.val = 49)

section
variable (c : Dev nD) (a1 a2 : Memref sig .tc .vmem S2000x64 .f32) (a3 : Memref sig .tc .vmem S2000x1 .f32)
  (a4 a5 : Memref sig .tc .vmem S1x64 .f32) (a6 : Memref sig .tc .vmem S2000x1 .i32) (a7 : Memref sig .tc .vmem S64x1 .f32)
  (a8 : Memref sig .tc .vmem S1x1 .f32) (a9 : Memref sig .tc .vmem S256x1 .f32) (a10 : Memref sig .tc .vmem S256x64 .f32)
  (a11 : Memref sig .tc .vmem S256x1 .f32)
  (x0 x1 : Vec F S2000x64 .f32) (x2 : Vec F S2000x1 .f32) (x3 x4 : Vec F S1x64 .f32) (x5 : Vec F S2000x1 .i32)
  (x6 : Vec F S64x1 .f32) (x7 : Vec F S1x1 .f32)

-- One point's step of each accumulator from contents `s`, `n`, and the head's value on them, over the tile's eight blocks.
noncomputable def sStep (s : Vec F S256x64 .f32) : Vec F S256x64 .f32 := View.canon [⟨wholeSums, k2_pay1 (k2_pay8 x2 x0 x1 x3 x4 x5 s)⟩]
noncomputable def nStep (n : Vec F S256x1 .f32) : Vec F S256x1 .f32 := View.canon [⟨wholeCnts, k2_pay2 (k2_pay6 x5) k2_pay7 n⟩]
noncomputable def oStep (s : Vec F S256x64 .f32) (n : Vec F S256x1 .f32) : Vec F S256x1 .f32 :=
  View.canon [⟨wholeCnts, k2_pay3 (sStep x0 x1 x2 x3 x4 x5 s) (nStep x5 n) x6 x7⟩]

-- What each store's payload is once every load through a whole-buffer rectangle is read as the contents themselves.
theorem pay_s (s S : Vec F S256x64 .f32) (hS : S = s) :
    k2_pay1 (k2_pay8 (View.ld x2 wholeCol) (View.ld x0 wholeTile) (View.ld x1 wholeTile) (View.ld x3 wholeRow) (View.ld x4 wholeRow) (View.ld x5 wholeCol) S)
      = sStep x0 x1 x2 x3 x4 x5 s := by
  subst hS; unfold sStep; rw [canon_zz]; simp only [ld_zz]

theorem pay_n (n S : Vec F S256x1 .f32) (hS : S = n) : k2_pay2 (k2_pay6 (View.ld x5 wholeCol)) k2_pay7 S = nStep x5 n := by
  subst hS; unfold nStep; rw [canon_zz]; simp only [ld_zz]

theorem pay_o (s : Vec F S256x64 .f32) (n : Vec F S256x1 .f32) (A B) (hA : A = sStep x0 x1 x2 x3 x4 x5 s) (hB : B = nStep x5 n) :
    k2_pay3 A B (View.ld x6 wholeHead) (View.ld x7 wholeBias) = oStep x0 x1 x2 x3 x4 x5 x6 x7 s n := by
  subst hA hB; unfold oStep; rw [canon_zz]; simp only [ld_zz]

-- The body's eleven buffers: the inputs' at the tile's blocks, the output's at `xo`, the accumulators at `s` and `n`.
def held (xo : Vec F S256x1 .f32) (s : Vec F S256x64 .f32) (n : Vec F S256x1 .f32) : sProp 𝕄 :=
  iprop(own c a1 x0 ∗ own c a2 x1 ∗ own c a3 x2 ∗ own c a4 x3 ∗ own c a5 x4 ∗ own c a6 x5 ∗ own c a7 x6 ∗ own c a8 x7
    ∗ own c a9 xo ∗ own c a10 s ∗ own c a11 n)

variable (i : grid2.Coords) (E : Set ℕ) (h1 : a1.IsWhole) (h2 : a2.IsWhole) (h3 : a3.IsWhole) (h4 : a4.IsWhole) (h5 : a5.IsWhole)
  (h6 : a6.IsWhole) (h7 : a7.IsWhole) (h8 : a8.IsWhole) (h9 : a9.IsWhole) (h10 : a10.IsWhole) (h11 : a11.IsWhole)

-- The body run from the eleven buffers at `xo`, `s`, `n` leaves them at `xo'`, `s'`, `n'`.
def runs (xo xo' : Vec F S256x1 .f32) (s s' : Vec F S256x64 .f32) (n n' : Vec F S256x1 .f32) : Prop :=
  ∀ K : PUnit → sProp 𝕄, iprop(held c a1 a2 a3 a4 a5 a6 a7 a8 a9 a10 a11 x0 x1 x2 x3 x4 x5 x6 x7 xo s n ∗ (held c a1 a2 a3 a4 a5 a6 a7 a8 a9 a10 a11 x0 x1 x2 x3 x4 x5 x6 x7 xo' s' n' -∗ K ⟨⟩))
    ⊢ wp frame (wpE (defs₀ (F := F)) Variants.none c none) E (cc2__bn_pool_kernel i a1 h1 a2 h2 a3 h3 a4 h4 a5 h5 a6 h6 a7 h7 a8 h8 a9 h9 a10 h10 a11 h11) K

variable {c a1 a2 a3 a4 a5 a6 a7 a8 a9 a10 a11 x0 x1 x2 x3 x4 x5 x6 x7 i E h1 h2 h3 h4 h5 h6 h7 h8 h9 h10 h11}

-- A point neither first nor last steps both accumulators and leaves every other buffer as it was.
theorem run_mid (hF : ¬atFirst i) (hL : ¬atLast i) {xo s n} : runs c a1 a2 a3 a4 a5 a6 a7 a8 a9 a10 a11 x0 x1 x2 x3 x4 x5 x6 x7 i E h1 h2 h3 h4 h5 h6 h7 h8 h9 h10 h11 xo xo s (sStep x0 x1 x2 x3 x4 x5 s) n (nStep x5 n) := fun K => by
  unfold held own; simp only [owns_eq_rep, cc2__bn_pool_kernel_eq_skeleton]; unfold cc2__bn_pool_kernel_skel
  iintro ⟨⟨H0, H1, H2, H3, H4, H5, H6, H7, HO, HS, HN⟩, Hk⟩
  sl_exec
  sl_step
  iapply Hk
  iframe
  isplitl [HS]
  · iapply rep_of_owns; unfold owns; iexists _; iframe HS
    ipureintro; exact (read_zz ..).trans ((pay_s (hS := ld_zz _ _) ..).trans (by simp only [View.read_rep]))
  iapply rep_of_owns; unfold owns; iexists _; iframe HN
  ipureintro; exact (read_zz ..).trans ((pay_n (hS := ld_zz _ _) ..).trans (by simp only [View.read_rep]))

-- The first point zeroes both accumulators before it steps them.
theorem run_first (hF : atFirst i) (hL : ¬atLast i) {xo s n} : runs c a1 a2 a3 a4 a5 a6 a7 a8 a9 a10 a11 x0 x1 x2 x3 x4 x5 x6 x7 i E h1 h2 h3 h4 h5 h6 h7 h8 h9 h10 h11 xo xo s (sStep x0 x1 x2 x3 x4 x5 k2_pay4) n (nStep x5 k2_pay5) := fun K => by
  unfold held own; simp only [owns_eq_rep, cc2__bn_pool_kernel_eq_skeleton]; unfold cc2__bn_pool_kernel_skel
  iintro ⟨⟨H0, H1, H2, H3, H4, H5, H6, H7, HO, HS, HN⟩, Hk⟩
  sl_exec
  sl_step
  iapply Hk
  iframe
  isplitl [HS]
  · iapply rep_of_owns; unfold owns; iexists _; iframe HS
    ipureintro
    exact (read_zz ..).trans ((pay_s (hS := View.readCov_cons_toLoadRect ..) ..).trans (by simp only [View.read_rep]))
  iapply rep_of_owns; unfold owns; iexists _; iframe HN
  ipureintro
  exact (read_zz ..).trans ((pay_n (hS := View.readCov_cons_toLoadRect ..) ..).trans (by simp only [View.read_rep]))

-- The last point steps both accumulators, then stores the head's value on them into the output's buffer.
theorem run_last (hF : ¬atFirst i) (hL : atLast i) {xo s n} :
    runs c a1 a2 a3 a4 a5 a6 a7 a8 a9 a10 a11 x0 x1 x2 x3 x4 x5 x6 x7 i E h1 h2 h3 h4 h5 h6 h7 h8 h9 h10 h11 xo (oStep x0 x1 x2 x3 x4 x5 x6 x7 s n) s (sStep x0 x1 x2 x3 x4 x5 s) n (nStep x5 n) := fun K => by
  unfold held own; simp only [owns_eq_rep, cc2__bn_pool_kernel_eq_skeleton]; unfold cc2__bn_pool_kernel_skel
  iintro ⟨⟨H0, H1, H2, H3, H4, H5, H6, H7, HO, HS, HN⟩, Hk⟩
  sl_exec
  sl_step
  iapply Hk
  iframe
  isplitl [HO]
  · iapply rep_of_owns; unfold owns; iexists _; iframe HO
    ipureintro; exact (read_zz ..).trans ((pay_o (hA := (View.readCov_cons_toLoadRect ..).trans (pay_s (hS := ld_zz _ _) ..))
      (hB := (View.readCov_cons_toLoadRect ..).trans (pay_n (hS := ld_zz _ _) ..)) ..).trans (by simp only [View.read_rep]))
  isplitl [HS]
  · iapply rep_of_owns; unfold owns; iexists _; iframe HS
    ipureintro; exact (read_zz ..).trans ((pay_s (hS := ld_zz _ _) ..).trans (by simp only [View.read_rep]))
  iapply rep_of_owns; unfold owns; iexists _; iframe HN
  ipureintro; exact (read_zz ..).trans ((pay_n (hS := ld_zz _ _) ..).trans (by simp only [View.read_rep]))

end

theorem before_in (c : Dev nD) (t : Fin cfg2.N) : ∀ w : Fin cfg2.W, w ≠ 8 → ∀ d, (dat V c).before w t d = (dat V c).after w t
  | ⟨8, _⟩, h, _ => absurd rfl h
  | ⟨0, _⟩, _, d | ⟨1, _⟩, _, d | ⟨2, _⟩, _, d | ⟨3, _⟩, _, d | ⟨4, _⟩, _, d | ⟨5, _⟩, _, d | ⟨6, _⟩, _, d | ⟨7, _⟩, _, d =>
    ((dat V c).before_in_eq_fetched _ rfl (fun _ => rfl) (fun _ _ _ => rfl) (fun _ => rfl) t d).trans rfl

theorem leaves_in (c : Dev nD) (t : Fin cfg2.N) : ∀ w : Fin cfg2.W, w ≠ 8 →
    (dat V c).leavesExact w t = owns (c : Thread nD τ) ((cfg2.win w).stage (cfg2.slots t w)) fullShare ((dat V c).after w t)
  | ⟨8, _⟩, h => absurd rfl h
  | ⟨0, _⟩, _ | ⟨1, _⟩, _ | ⟨2, _⟩, _ | ⟨3, _⟩, _ | ⟨4, _⟩, _ | ⟨5, _⟩, _ | ⟨6, _⟩, _ | ⟨7, _⟩, _ => rfl

theorem at_zero (c : Dev nD) (t : Fin cfg2.N) (h : t.val = 0) :
    sumsAt V c t.val = sStep ((dat V c).after 0 t) ((dat V c).after 1 t) ((dat V c).after 2 t) ((dat V c).after 3 t) ((dat V c).after 4 t) ((dat V c).after 5 t) k2_pay4 ∧ cntsAt V c t.val = nStep ((dat V c).after 5 t) k2_pay5 := by
  obtain ⟨n, hn⟩ := t
  obtain rfl : n = 0 := h
  exact ⟨congrArg (sStep _ _ _ _ _ _) (canon_zz _ _ _), congrArg (nStep _) (canon_zz _ _ _)⟩

theorem at_pos (c : Dev nD) (t : Fin cfg2.N) (h : t.val ≠ 0) :
    sumsAt V c t.val = sStep ((dat V c).after 0 t) ((dat V c).after 1 t) ((dat V c).after 2 t) ((dat V c).after 3 t) ((dat V c).after 4 t) ((dat V c).after 5 t) (sumsAt V c (t.val - 1)) ∧ cntsAt V c t.val = nStep ((dat V c).after 5 t) (cntsAt V c (t.val - 1)) := by
  obtain ⟨n, hn⟩ := t
  cases n with
  | zero => exact absurd rfl h
  | succ n => exact ⟨(dif_pos hn).trans rfl, (dif_pos hn).trans rfl⟩

theorem outTile_at (c : Dev nD) (t : Fin cfg2.N) (h : t.val = 49) (h0 : t.val ≠ 0) :
    outTile V c = oStep ((dat V c).after 0 t) ((dat V c).after 1 t) ((dat V c).after 2 t) ((dat V c).after 3 t) ((dat V c).after 4 t) ((dat V c).after 5 t) ((dat V c).after 6 t) ((dat V c).after 7 t) (sumsAt V c (t.val - 1)) (cntsAt V c (t.val - 1)) := by
  obtain ⟨n, hn⟩ := t
  obtain rfl : n = 49 := h
  rfl

-- Both accumulators are among the buffers the first point's invariant holds at some contents.
theorem PhiA_split (c : Dev nD) :
    (Pipeline.ΦA spec2 c : sProp 𝕄)
      = iprop((((∃ d, own c sumsM d) ∗ (∃ d, own c cntsM d)) ∗ others (F := F) c) ∗ ∃ r, prngReg c r) := by
  unfold Pipeline.ΦA others
  rw [Pipeline.scopedRest_split_of_list spec2 c [cc2_scratch0, cc2_scratch1] (by decide) (by decide)]
  simp only [own, sumsM, cntsM, owns_whole]; rfl

theorem idle_out : ∀ t : Fin cfg2.N, t.val ≠ 49 → cfg2.idle 8 (cfg2.grid.coords t) = true := by decide +kernel
theorem noflush_out : ∀ t : Fin cfg2.N, t.val ≠ 49 → (cfg2.win 8).flush t = false := by decide +kernel
theorem live_out : ∀ t : Fin cfg2.N, t.val = 49 → cfg2.idle 8 (cfg2.grid.coords t) = false := by decide +kernel

theorem leaves_out (c : Dev nD) (t : Fin cfg2.N) (h : t.val = 49) :
    (dat V c).leavesExact 8 t = own c (st2_8 t) (outTile V c) := by
  unfold Dat.leavesExact; rw [live_out t h, dat_after_out]

theorem dat_phi_last (c : Dev nD) : (dat V c).Φ (Fin.last _) ⊢ (Pipeline.ΦA spec2 c : sProp 𝕄) := by
  show inv V c (49 + 1) ⊢ _
  rw [inv, PhiA_split]
  iintro ⟨⟨⟨HS, HN⟩, HO⟩, Hg⟩
  iframe
  isplitl [HS] <;> iexists _ <;> iassumption

-- The point is the first, the last or neither; that case's run takes the accumulators from the invariant and gives them back one step on.
theorem sound_body (c : Dev nD) (t : Fin cfg2.N) :
    iprop(inv V c t.val ∗ (dat V c).owesAt () t.castSucc
        ∗ bigSep Finset.univ fun w : Fin cfg2.W => iprop(∃ d, owns (c : Thread nD τ) ((cfg2.win w).stage (cfg2.slots t w)) fullShare ((dat V c).before w t d)))
      ⊢ wp frame (wpE (defs₀ (F := F)) Variants.none c none) Set.univ (bodyAt2 t) fun _ =>
          iprop(inv V c (t.val + 1) ∗ (dat V c).owesAt () t.castSucc ∗ bigSep Finset.univ fun w : Fin cfg2.W => (dat V c).leavesExact w t) := by
  rw [bigSep_W2, bigSep_W2, inv]
  simp (disch := decide) only [before_in, leaves_in]
  by_cases h0 : t.val = 0
  · have h49 : t.val ≠ 49 := by omega
    rw [Dat.leavesExact_idle (dat V c) 8 t (idle_out t h49) (noflush_out t h49), (at_zero V c t h0).1, (at_zero V c t h0).2,
      show inv V c t.val = Pipeline.ΦA spec2 c from by rw [h0]; rfl, PhiA_split]
    iintro ⟨⟨⟨⟨⟨%ds, HS⟩, ⟨%dn, HN⟩⟩, HO⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (run_first ((atFirst_iff t).mpr h0) (mt (atLast_iff t).mp h49) _)
    unfold held own
    iframe
    iintro ⟨H0, H1, H2, H3, H4, H5, H6, H7, H8, HS, HN⟩
    iframe
    iexists _; iexact H8
  · have hF := mt (atFirst_iff t).mp h0
    rw [show inv V c t.val = inv V c (t.val - 1 + 1) from by rw [Nat.sub_add_cancel (Nat.pos_of_ne_zero h0)], inv,
      (at_pos V c t h0).1, (at_pos V c t h0).2]
    by_cases h49 : t.val = 49
    · rw [leaves_out V c t h49, outTile_at V c t h49 h0]
      iintro ⟨⟨⟨⟨HS, HN⟩, HO⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (run_last hF ((atLast_iff t).mpr h49) _)
      unfold held own
      iframe
      iintro ⟨H0, H1, H2, H3, H4, H5, H6, H7, H8, HS, HN⟩
      iframe
    · rw [Dat.leavesExact_idle (dat V c) 8 t (idle_out t h49) (noflush_out t h49)]
      iintro ⟨⟨⟨⟨HS, HN⟩, HO⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (run_mid hF (mt (atLast_iff t).mp h49) _)
      unfold held own
      iframe
      iintro ⟨H0, H1, H2, H3, H4, H5, H6, H7, H8, HS, HN⟩
      iframe
      iexists _; iexact H8

theorem body (c : Dev nD) : BodyObligation (dat (F := F) V c) (defs₀ (F := F)) Variants.none () Set.univ := sound_body V c

end Cert.Kernel.NormPool

end
-- ==== Proof.K.Launch.lean ====
import proofs.«404818_j7687991460117_2_alg».proof.Proof.K.Proj1
import proofs.«404818_j7687991460117_2_alg».proof.Proof.K.NormProj2
import proofs.«404818_j7687991460117_2_alg».proof.Proof.K.NormPool
import proofs.«404818_j7687991460117_2_alg».proof.Proof.Gen.Kernel.Regions
import Idealize.ShloMosaic.Lib.Pipeline.Regions
import Idealize.ShloMosaic.Lib.Pipeline.RegionsLoop
import Idealize.ShloMosaic.Lib.Pipeline.FrameSuffix
import Idealize.ShloMosaic.Adequacy
import Idealize.ShloMosaic.Init

noncomputable section

namespace Cert.Kernel.Run

open Gen
open Idealize.ShloMosaic Idealize.ShloMosaic.TcCoe
open Idealize.SL Idealize.SL.RA Idealize.SL.BI
open Idealize.SL.BI.BIBase Idealize.SL.BI.Laws Idealize.SL.ProofMode Idealize.SL.Sem
open Idealize.ShloMosaic.Rounds
open Idealize.ShloMosaic.Pipeline (Dat cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

noncomputable abbrev at0 : Dev nD → Valuation τ sig (Elt F) := fun c b => m (c, b)

noncomputable abbrev at1 : Dev nD → Valuation τ sig (Elt F) := fun c => StableHlo.after hostOps0 (at0 m c)

noncomputable abbrev in1 : (c : Dev nD) → (b : Ref sig .tc) → Buf (Elt F) ((c : Thread nD τ).loc b) := fun c b => at1 m c b

noncomputable def at2 (c : Dev nD) : Valuation τ sig (Elt F) :=
  Pipeline.withArrays spec0 c (at1 m c) fun w => (Proj1.dat (in1 m) c).arrAt w cfg0.N

noncomputable abbrev at3 : Dev nD → Valuation τ sig (Elt F) := fun c => StableHlo.after hostOps1 (at2 m c)
noncomputable abbrev in3 : (c : Dev nD) → (b : Ref sig .tc) → Buf (Elt F) ((c : Thread nD τ).loc b) := fun c b => at3 m c b

noncomputable def at4 (c : Dev nD) : Valuation τ sig (Elt F) :=
  Pipeline.withArrays spec1 c (at3 m c) fun w => (NormProj2.dat (in3 m) c).arrAt w cfg1.N

noncomputable abbrev at5 : Dev nD → Valuation τ sig (Elt F) := fun c => StableHlo.after hostOps2 (at4 m c)
noncomputable abbrev in5 : (c : Dev nD) → (b : Ref sig .tc) → Buf (Elt F) ((c : Thread nD τ).loc b) := fun c b => at5 m c b

noncomputable def at6 (c : Dev nD) : Valuation τ sig (Elt F) :=
  Pipeline.withArrays spec2 c (at5 m c) fun w => (NormPool.dat (in5 m) c).arrAt w cfg2.N

noncomputable abbrev at7 : Dev nD → Valuation τ sig (Elt F) := fun c => StableHlo.after hostOps3 (at6 m c)

theorem ends_as_launched (c : Dev nD) (r : Ref sig .tc)
    (h0 : r ∉ hostOps0_W) (h1 : r ∉ hostOps1_W) (h2 : r ∉ hostOps2_W) (h3 : r ∉ hostOps3_W)
    (k0 : at2 m c (Proc.devRef .tc r) = at1 m c (Proc.devRef .tc r))
    (k1 : ∀ w, Pipeline.arrRef spec1 w ≠ r) (k2 : ∀ w, Pipeline.arrRef spec2 w ≠ r) :
    at7 m c (Proc.devRef .tc r) = m ((c.tc : Thread nD τ).loc r) :=
  (StableHlo.after_of_writes_sub hostOps3 _ hostOps3_writes h3).trans <| (Pipeline.withArrays_of_ne spec2 c _ _ r k2).trans <|
    (StableHlo.after_of_writes_sub hostOps2 _ hostOps2_writes h2).trans <| (Pipeline.withArrays_of_ne spec1 c _ _ r k1).trans <|
    (StableHlo.after_of_writes_sub hostOps1 _ hostOps1_writes h1).trans <| k0.trans <|
    StableHlo.after_of_writes_sub hostOps0 _ hostOps0_writes h0

noncomputable abbrev noPairs : GSem nD τ sig → Finset Unit := fun _ => ∅
noncomputable abbrev noLevel : GSem nD τ sig → Unit → ℕ := fun _ _ => 0

noncomputable abbrev carried (c : Dev nD) : sProp 𝕄 :=
  iprop((∃ r, prngReg c r) ∗ ∃ W, owes (c : Thread nD τ) (0 : CellTallies nD τ sig Unit) W)

noncomputable abbrev stretch (ops : List (HloOp τ sig (Elt F))) (hsub : ops.Forall fun op => op.bufs ⊆ StableHlo.tcRefs τ sig)
    (hfresh : ops.Forall fun op => op.fresh = ∅) (V : Dev nD → Valuation τ sig (Elt F)) :
    Pipeline.HostSeg (Name := ℕ) (U := UR sig nD τ) (pcfgs (F := F)) defs₀ Variants.none noPairs noLevel :=
  Pipeline.HostSeg.ofOps _ _ _ _ _ (Pipeline.ucRefs τ sig) ops
    (fun op h => Pipeline.sub_ucRefs op ((List.forall_iff_forall_mem.mp hsub) op h))
    (List.forall_iff_forall_mem.mp hfresh) V carried

noncomputable def data : (p : Fin 3) → (c : Dev nD) → Dat τ (Elt F) Unit ℕ (UR sig nD τ) ℕ (Pipeline.pin (pcfgs (F := F)) adm p) c
  | ⟨0, _⟩ => fun c => Proj1.dat (in1 m) c
  | ⟨1, _⟩ => fun c => NormProj2.dat (in3 m) c
  | ⟨2, _⟩ => fun c => NormPool.dat (in5 m) c

noncomputable abbrev regionOut (p : Fin 3) (Vin : Dev nD → Valuation τ sig (Elt F)) (c : Dev nD) : Valuation τ sig (Elt F) :=
  Pipeline.withArrays (cfgs p).spec c (Vin c) fun w => (data m p c).arrAt w (cfgs p).N

set_option backward.isDefEq.respectTransparency.types false in
noncomputable def kernelItem (p : Fin 3) (lay : Pipeline.LaunchFacts (nD := nD) (τ := τ) cfgs p) (Vin : Dev nD → Valuation τ sig (Elt F))
    (hbody : ∀ c, Pipeline.BodyObligationLoose (data m p c) (defs₀ (F := F)) Variants.none () Set.univ)
    (hq : ∀ c w, (data m p c).q w = fullShare) (howed : ∀ c t, (data m p c).owed t = 0)
    (hrec : ∀ c x, x ∈ (data m p c).recorded 0)
    (hA : ∀ c w, (data m p c).A w = Vin c (Proc.devRef .tc (Pipeline.arrRef (cfgs p).spec w)))
    (hfirst : ∀ c, (data m p c).Φ 0 = Pipeline.ΦA (cfgs p).spec c)
    (hlast : ∀ c, (data m p c).Φ (Fin.last _) ⊢ (Pipeline.ΦA (cfgs p).spec c : sProp 𝕄)) :
    Pipeline.RegionSeg (pcfgs (F := F)) adm (data m) () defs₀ Variants.none noPairs noLevel p where
  win := lay.win.to₀
  block_pos := lay.block_pos
  stage_whole := lay.stage_whole
  K := PEmpty
  osem k := k.elim
  ho := Pipeline.OwnSemFacts.none _
  hbody := hbody
  hwaits := Pipeline.hwaits_of_owed_zero _ _ _ _ noPairs noLevel p howed
  pre c := iprop(StableHlo.held (c : Thread nD τ) (Pipeline.ucRefs τ sig) (Vin c) ∗ carried c)
  post c := iprop(StableHlo.held (c : Thread nD τ) (Pipeline.ucRefs τ sig) (regionOut m p Vin c) ∗ carried c)
  X c := iprop(∃ r, prngReg c r)
  Y c := iprop(∃ r, prngReg c r)
  Z c := Pipeline.unscopedRest (Ix := Unit) (Name := ℕ) (U := UR sig nD τ) (Lvl := ℕ) (cfgs p).spec c (fun b => Vin c b)
  hentry c := by
    rw [Pipeline.ownSems0_none]
    have hsplit := Pipeline.arrays_of_unscopedBufs (p := p) (pcfgs (F := F)) adm (data m) lay.win lay.arr_whole c
      ((data m p c).share_full (hq c)) (fun b => Vin c b) (hA c)
    rw [Pipeline.unscopedBufs_held] at hsplit
    iintro ⟨⟨Hbufs, Hreg, Howes⟩, -, -⟩
    ihave H := hsplit $$ Hbufs
    icases H with ⟨Harr, Hrest⟩
    imodintro
    iframe Harr Hreg Hrest
    isplitr
    · unfold Pipeline.prefHeld; rw [show (Finset.univ : Finset (Fin 0)) = ∅ from rfl, BI.bigSep_empty]; iempintro
    unfold Pipeline.Dat.owesAt Pipeline.owesWithin
    rw [howed c 0]
    icases Howes with ⟨%W, Howes⟩; iexists W; isplitr; · ipureintro; exact fun x _ => Or.inl (hrec c x)
    iexact Howes
  hin c := by
    rw [hfirst c]; unfold Pipeline.ΦA
    iintro ⟨Hreg, -, Hscoped⟩
    iframe
  hout c := by
    rw [Pipeline.ownSems0_none]
    refine (hlast c).trans ?_
    unfold Pipeline.ΦA
    iintro ⟨Hscoped, Hreg⟩
    iframe
    iempintro
  hexit c := by
    have hjoin := Pipeline.unscopedBufs_of_arrays (p := p) (pcfgs (F := F)) adm (Ix := Unit) (Name := ℕ) (U := UR sig nD τ) (Lvl := ℕ)
      lay.win lay.arr_whole c (data m) ((data m p c).share_full (hq c))
      (fun b => Vin c b) (fun b => regionOut m p Vin c b) ((data m p c).arrAt · (cfgs p).N)
      (fun w => (Pipeline.withArrays_arr (cfgs p).spec lay.win.arr_inj c (Vin c) ((data m p c).arrAt · (cfgs p).N) w).symm)
      (fun b hb => Pipeline.withArrays_of_ne (cfgs p).spec c (Vin c) ((data m p c).arrAt · (cfgs p).N) b fun w e => hb (Finset.mem_image.mpr ⟨w, Finset.mem_univ _, e⟩))
    rw [Pipeline.unscopedBufs_held] at hjoin
    iintro ⟨Harr, Howes, Hreg, Hrest⟩
    imodintro
    isplitl [Harr Hrest]
    · iapply hjoin; iframe
    isplitl [Hreg]; · iexact Hreg
    unfold Pipeline.Dat.owesAt Pipeline.owesWithin
    rw [howed c (Fin.last _)]
    icases Howes with ⟨%W, -, Howes⟩; iexists W; iexact Howes

noncomputable abbrev items : List (Pipeline.Seg (pcfgs (F := F)) adm (data m) () defs₀ Variants.none noPairs noLevel) :=
  [ .host (stretch hostOps0 hostOps0_sub hostOps0_fresh (at0 m)),
    .region (kernelItem m 0 launch0 (at1 m) (fun c => (Proj1.body (in1 m) c).loose)
      (fun _ _ => rfl) (fun _ _ => rfl) (fun _ _ => trivial)
      (Proj1.dat_A (in1 m)) (Proj1.dat_phi_first (in1 m)) (Proj1.dat_phi_last (in1 m))),
    .host (stretch hostOps1 hostOps1_sub hostOps1_fresh (at2 m)),
    .region (kernelItem m 1 launch1 (at3 m) (fun c => (NormProj2.body (in3 m) c).loose)
      (fun _ _ => rfl) (fun _ _ => rfl) (fun _ _ => trivial)
      (NormProj2.dat_A (in3 m)) (NormProj2.dat_phi_first (in3 m)) (NormProj2.dat_phi_last (in3 m))),
    .host (stretch hostOps2 hostOps2_sub hostOps2_fresh (at4 m)),
    .region (kernelItem m 2 launch2 (at5 m) (fun c => (NormPool.body (in5 m) c).loose)
      (fun _ _ => rfl) (fun _ _ => rfl) (fun _ _ => trivial)
      (NormPool.dat_A (in5 m)) (NormPool.dat_phi_first (in5 m)) (NormPool.dat_phi_last (in5 m))),
    .host (stretch hostOps3 hostOps3_sub hostOps3_fresh (at6 m)) ]

theorem main_items (c : Dev nD) : main (F := F) c = Pipeline.Seg.run (items m) := (main_chain c).trans (by chain_rfl)

set_option backward.isDefEq.respectTransparency.types false in

theorem run : θ_run defs (onTc (τ := τ) (main (F := F))) ⟨m, fun _ => 0, ρ⟩ (fun r => ∀ c : Dev nD,
      ∀ b ∈ Pipeline.ucRefs τ sig, r.2.mem ((c : Thread nD τ).1, b) = at7 m c b) :=
  Pipeline.θ_run_regions_kit (pcfgs (F := F)) adm (data m) () cellOf_inj emb₁ defs₀ Variants.none noPairs noLevel m ρ main (items m)
    (fun c Q => by rw [main_items m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (at0 m c) ∗ carried c))
    (Tₙ := fun c => iprop(StableHlo.held (c : Thread nD τ) (Pipeline.ucRefs τ sig) (at7 m c) ∗ ∃ r, prngReg c r))
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (at7 m c) ∗ carried c) ⊢ _
      iintro ⟨Hbufs, Hreg, Howes⟩
      isplitr [Howes]
      · isplitl [Hbufs] <;> iassumption
      iexact Howes⟩)
    (hinit := by
      refine Pipeline.initEach noPairs noLevel fun c => ?_
      rw [show unscopedBufs c (fun b => m ((c : Thread nD τ).loc b)) = StableHlo.held (c : Thread nD τ) (Pipeline.ucRefs τ sig) (at0 m c)
        from Pipeline.unscopedBufs_held c (at0 m c)]
      iintro ⟨⟨Hbufs, -, Howes, -, Hreg, -⟩, -⟩
      imodintro
      iframe Hbufs
      isplitl [Hreg]; · iexists _; iexact Hreg
      iexists ∅; iexact Howes)
    (QY := fun c s => ∀ b ∈ Pipeline.ucRefs τ sig, s.mem (((c : Thread nD τ)).1, b) = at7 m c b)
    (hfin := fun c s' => by
      iintro ⟨⟨Hbufs, -⟩, HSI⟩
      unfold StableHlo.held
      imodintro
      iapply (pointsTo_read_all (Pipeline.ucRefs τ sig) (fun b => (((c : Thread nD τ)).1, b)) (at7 m c) s')
      isplitl [Hbufs] <;> iassumption)
    (hQ := fun s h => h)

noncomputable def kept (r : PUnit × MemSt nD τ sig (Elt F)) (c : Dev nD) : Prop :=
  [main_arg0, main_arg1, main_arg2, main_arg3, main_arg4, main_arg5, main_arg6, main_arg7, main_arg8, main_arg9, main_arg10, main_arg11,
    main_arg12, main_arg13, main_arg14, main_arg15, main_arg16].Forall fun x =>
      r.2.mem ((c.tc : Thread nD τ).loc x) = m ((c.tc : Thread nD τ).loc x)

theorem final_at {r : PUnit × MemSt nD τ sig (Elt F)}
    (hr : ∀ c : Dev nD, ∀ b ∈ Pipeline.ucRefs τ sig, r.2.mem ((c : Thread nD τ).1, b) = at7 m c b)
    (c : Dev nD) (x : Ref sig .tc) (hx : ¬ (Proc.devRef .tc x : DevRef τ sig).isScoped) :
    r.2.mem ((c.tc : Thread nD τ).loc x) = at7 m c (Proc.devRef .tc x) :=
  hr c _ (Finset.mem_filter.mpr ⟨StableHlo.devRef_mem_tcRefs x, hx⟩)

-- The result buffer ends at `at7`; every argument is written by no host operation and changed by no kernel region.
theorem run_result : θ_run defs (onTc (τ := τ) (main (F := F))) ⟨m, fun _ => 0, ρ⟩ (fun r => ∀ c : Dev nD,
      r.2.mem ((c.tc : Thread nD τ).loc main_v60) = at7 m c (Proc.devRef .tc main_v60) ∧ kept m r c) := by
  refine (θ_run defs _ _).mono (fun r hr c => ⟨final_at m hr c main_v60 (by decide),
    (final_at m hr c main_arg0 (by decide)).trans (ends_as_launched m c main_arg0 (by decide) (by decide) (by decide)
      (by decide) ((Pipeline.withArrays_arr spec0 launch0.win.arr_inj c _ _ 0).trans
        (((Proj1.dat (in1 m) c).arrAt_in 0 rfl _).trans (Proj1.dat_A (in1 m) c 0))) (by decide) (by decide)), ?_⟩) (run m ρ)
  repeat' apply And.intro
  all_goals exact (final_at m hr c _ (by decide)).trans <|
    ends_as_launched m c _ (by decide) (by decide) (by decide) (by decide) (Pipeline.withArrays_of_ne spec0 c _ _ _ (by decide)) (by decide) (by decide)

theorem frame : θ_run defs (onTc (τ := τ) (main (F := F))) ⟨m, fun _ => 0, ρ⟩ (fun r => ∀ c : Dev nD, kept m r c) :=
  (θ_run defs _ _).mono (fun _ h c => (h c).2) (run_result m ρ)

end Cert.Kernel.Run

end
-- ==== Proof.KI.Proj1.lean ====
import proofs.«404818_j7687991460117_2_alg».proof.Proof.Gen.KernelIdeal.Launch
import proofs.«404818_j7687991460117_2_alg».proof.Proof.Gen.KernelIdeal.Skeleton
import proofs.«404818_j7687991460117_2_alg».proof.Proof.Gen.KernelIdeal.Points
import Idealize.ShloMosaic.Lib.Pipeline.Value
import Idealize.ShloMosaic.Lib.Pipeline.TableIdle

namespace Cert.KernelIdeal.Proj1

open Gen
open Idealize.ShloMosaic Idealize.ShloMosaic.TcCoe
open Idealize.SL.RA Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

noncomputable def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

noncomputable abbrev whole : Rect S2000x64 := Rect.unit (s := S2000x64) ![0, 0] S2000x64.size inb_S2000x64_S2000x64_0_0

noncomputable def tile (x : Vec F S2000x128 .f32) (wt : Vec F S128x64 .f32) (dinv : Vec F S2000x1 .f32) : Vec F S2000x64 .f32 :=
  View.canon [⟨whole, k0_pay1 x wt dinv⟩]

noncomputable def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => blk V c 2 t
    | ⟨3, _⟩ => tile (blk V c 0 t) (blk V c 1 t) (blk V c 2 t)
  Φ _ := Pipeline.ΦA spec0 c
  q _ := fullShare
  owed _ := 0

theorem dat_A (c : Dev nD) (w : Fin cfg0.W) : (dat V c).A w = V c (Pipeline.arrRef spec0 w) := by dsimp only [dat]
theorem dat_after_out (c : Dev nD) (t : Fin cfg0.N) : (dat V c).after 3 t = tile (blk V c 0 t) (blk V c 1 t) (blk V c 2 t) := by dsimp only [dat]
theorem dat_phi_first (c : Dev nD) : (dat V c).Φ 0 = Pipeline.ΦA spec0 c := rfl
theorem dat_phi_last (c : Dev nD) : (dat V c).Φ (Fin.last _) ⊢ (Pipeline.ΦA spec0 c : sProp 𝕄) := .rfl

theorem holds (c : Dev nD) (t : Fin cfg0.N) : ∀ w, (cfg0.win w).isOut = false → ∀ d, (dat V c).before w t d = (dat V c).after w t := by
  intro w; fin_cases w <;> intro h d <;> first
    | exact absurd h (by decide)
    | exact ((dat V c).before_in_eq_fetched _ h (fun _ => rfl) (fun _ _ _ => rfl)
        (fun _ => rfl) t d).trans rfl

-- Every rectangle is its shape's whole extent at the origin: a load through it reads the operand, the store's canon is its payload.
theorem kernel_run {c : Dev nD} {E i a1 h1 a2 h2 a3 h3 a4 h4 x wt dinv d} {K : PUnit → sProp 𝕄} :
    iprop(owns c.tc a1 fullShare x ∗ owns c.tc a2 fullShare wt ∗ owns c.tc a3 fullShare dinv ∗ owns c.tc a4 fullShare d
        ∗ (iprop(owns c.tc a1 fullShare x ∗ owns c.tc a2 fullShare wt ∗ owns c.tc a3 fullShare dinv
            ∗ owns c.tc a4 fullShare (tile x wt dinv)) -∗ K ⟨⟩))
      ⊢ wp frame (wpE (defs₀ (F := F)) Variants.none c none) E (cc0__proj1_kernel i a1 h1 a2 h2 a3 h3 a4 h4) K := by
  have o : (![0, 0] : Fin 2 → ℕ) = fun _ => 0 := by decide
  simp only [cc0__proj1_kernel_eq_skeleton]; unfold cc0__proj1_kernel_skel
  iterate 3 rw [owns_eq_rep]
  unfold owns
  iintro ⟨H1, H2, H3, ⟨%f, -, H4⟩, Hk⟩
  sl_exec
  sl_step
  iapply Hk
  iframe
  iexists _; iframe
  ipureintro
  rw [View.read_writes_eq_canon _ _ _ fun y => ⟨_, List.mem_singleton_self _, View.mem_set_unit_zero o inb_S2000x64_S2000x64_0_0 y⟩]
  simp only [tile, View.readAt_eq_ld, View.read_rep, View.ld_unit_zero (S := S2000x128) o, View.ld_unit_zero (S := S128x64) o,
    View.ld_unit_zero (S := S2000x1) o]

theorem body (c : Dev nD) : BodyObligation (dat (F := F) V c) (defs₀ (F := F)) Variants.none () Set.univ := fun t => by
  rw [bigSep_W0, bigSep_W0]
  simp (disch := rfl) only [holds V c t]
  dsimp only [dat, Dat.owesAt, Dat.bound]
  iintro ⟨HΦ, Ho, ⟨%d0, H0⟩, ⟨%d1, H1⟩, ⟨%d2, H2⟩, ⟨%d3, H3⟩⟩
  sl_whnfR [defs₀, Defs.onTc]
  iapply kernel_run
  iframe
  iintro H
  iframe

end Cert.KernelIdeal.Proj1
-- ==== Proof.KI.NormProj2.lean ====
import proofs.«404818_j7687991460117_2_alg».proof.Proof.Gen.KernelIdeal.Launch
import proofs.«404818_j7687991460117_2_alg».proof.Proof.Gen.KernelIdeal.Skeleton
import proofs.«404818_j7687991460117_2_alg».proof.Proof.Gen.KernelIdeal.Points
import Idealize.ShloMosaic.Lib.Pipeline.Value
import Idealize.ShloMosaic.Lib.Pipeline.TableIdle

namespace Cert.KernelIdeal.NormProj2

open Gen
open Idealize.ShloMosaic Idealize.ShloMosaic.TcCoe
open Idealize.SL.RA Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

noncomputable def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

noncomputable abbrev whole : Rect S2000x64 := Rect.unit (s := S2000x64) ![0, 0] S2000x64.size inb_S2000x64_S2000x64_0_0

noncomputable def tile (agg hsc : Vec F S2000x64 .f32) (dinv : Vec F S2000x1 .f32) (scale shift : Vec F S1x64 .f32) (w2t : Vec F S64x64 .f32) :
    Vec F S2000x64 .f32 :=
  View.canon [⟨whole, k1_pay1 dinv agg hsc scale shift w2t⟩]

noncomputable def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => tile (blk V c 0 t) (blk V c 1 t) (blk V c 2 t) (blk V c 3 t) (blk V c 4 t) (blk V c 5 t)
  Φ _ := Pipeline.ΦA spec1 c
  q _ := fullShare
  owed _ := 0

theorem dat_A (c : Dev nD) (w : Fin cfg1.W) : (dat V c).A w = V c (Pipeline.arrRef spec1 w) := by dsimp only [dat]
theorem dat_after_out (c : Dev nD) (t : Fin cfg1.N) :
    (dat V c).after 6 t = tile (blk V c 0 t) (blk V c 1 t) (blk V c 2 t) (blk V c 3 t) (blk V c 4 t) (blk V c 5 t) := by dsimp only [dat]
theorem dat_phi_first (c : Dev nD) : (dat V c).Φ 0 = Pipeline.ΦA spec1 c := rfl
theorem dat_phi_last (c : Dev nD) : (dat V c).Φ (Fin.last _) ⊢ (Pipeline.ΦA spec1 c : sProp 𝕄) := .rfl

theorem holds (c : Dev nD) (t : Fin cfg1.N) : ∀ w, (cfg1.win w).isOut = false → ∀ d, (dat V c).before w t d = (dat V c).after w t := by
  intro w; fin_cases w <;> intro h d <;> first
    | exact absurd h (by decide)
    | exact ((dat V c).before_in_eq_fetched _ h (fun _ => rfl) (fun _ _ _ => rfl)
        (fun _ => rfl) t d).trans rfl

-- Every rectangle is its shape's whole extent at the origin: a load through it reads the operand, the store's canon is its payload.
theorem kernel_run {c : Dev nD} {E i a0 h0 a1 h1 a2 h2 a3 h3 a4 h4 a5 h5 a6 h6 agg hsc dinv scale shift w2t d} {K : PUnit → sProp 𝕄} :
    iprop(owns c.tc a0 fullShare agg ∗ owns c.tc a1 fullShare hsc ∗ owns c.tc a2 fullShare dinv ∗ owns c.tc a3 fullShare scale
        ∗ owns c.tc a4 fullShare shift ∗ owns c.tc a5 fullShare w2t ∗ owns c.tc a6 fullShare d
        ∗ (iprop(owns c.tc a0 fullShare agg ∗ owns c.tc a1 fullShare hsc ∗ owns c.tc a2 fullShare dinv ∗ owns c.tc a3 fullShare scale
            ∗ owns c.tc a4 fullShare shift ∗ owns c.tc a5 fullShare w2t ∗ owns c.tc a6 fullShare (tile agg hsc dinv scale shift w2t)) -∗ K ⟨⟩))
      ⊢ wp frame (wpE (defs₀ (F := F)) Variants.none c none) E (cc1__bn_proj2_kernel i a0 h0 a1 h1 a2 h2 a3 h3 a4 h4 a5 h5 a6 h6) K := by
  have o : (![0, 0] : Fin 2 → ℕ) = fun _ => 0 := by decide
  simp only [cc1__bn_proj2_kernel_eq_skeleton]; unfold cc1__bn_proj2_kernel_skel
  iterate 6 rw [owns_eq_rep]
  unfold owns
  iintro ⟨H0, H1, H2, H3, H4, H5, ⟨%f, -, H6⟩, Hk⟩
  sl_exec
  sl_step
  iapply Hk
  iframe
  iexists _; iframe
  ipureintro
  rw [View.read_writes_eq_canon _ _ _ fun y => ⟨_, List.mem_singleton_self _, View.mem_set_unit_zero o inb_S2000x64_S2000x64_0_0 y⟩]
  simp only [tile, View.readAt_eq_ld, View.read_rep, View.ld_unit_zero (S := S2000x64) o, View.ld_unit_zero (S := S2000x1) o,
    View.ld_unit_zero (S := S1x64) o, View.ld_unit_zero (S := S64x64) o]

theorem body (c : Dev nD) : BodyObligation (dat (F := F) V c) (defs₀ (F := F)) Variants.none () Set.univ := fun t => by
  rw [bigSep_W1, bigSep_W1]
  simp (disch := rfl) only [holds V c t]
  dsimp only [dat, Dat.owesAt, Dat.bound]
  iintro ⟨HΦ, Ho, ⟨%d0, H0⟩, ⟨%d1, H1⟩, ⟨%d2, H2⟩, ⟨%d3, H3⟩, ⟨%d4, H4⟩, ⟨%d5, H5⟩, ⟨%d6, H6⟩⟩
  sl_whnfR [defs₀, Defs.onTc]
  iapply kernel_run
  iframe
  iintro H
  iframe

end Cert.KernelIdeal.NormProj2
-- ==== Proof.KI.NormPool.lean ====
import proofs.«404818_j7687991460117_2_alg».proof.Proof.Gen.KernelIdeal.Launch
import proofs.«404818_j7687991460117_2_alg».proof.Proof.Gen.KernelIdeal.Skeleton
import proofs.«404818_j7687991460117_2_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic
import Idealize.ShloMosaic.Lib.Pipeline.Value
import Idealize.ShloMosaic.Lib.Pipeline.TableIdle

noncomputable section

namespace Cert.KernelIdeal.NormPool

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

noncomputable def blk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

noncomputable abbrev sumsM : Memref sig .tc .vmem S256x64 .f32 := Memref.whole cc2_scratch0
noncomputable abbrev cntsM : Memref sig .tc .vmem S256x1 .f32 := Memref.whole cc2_scratch1

noncomputable abbrev wholeSums : Rect S256x64 := Rect.unit (s := S256x64) ![0, 0] S256x64.size inb_S256x64_S256x64_0_0
noncomputable abbrev wholeCnts : Rect S256x1 := Rect.unit (s := S256x1) ![0, 0] S256x1.size inb_S256x1_S256x1_0_0

noncomputable def sumsStep (c : Dev nD) (t : Fin cfg2.N) (s : Vec F S256x64 .f32) : Vec F S256x64 .f32 :=
  View.canon [⟨wholeSums, k2_pay1 (k2_pay8 (blk V c 2 t) (blk V c 0 t) (blk V c 1 t) (blk V c 3 t) (blk V c 4 t) (blk V c 5 t) s)⟩]

noncomputable def cntsStep (c : Dev nD) (t : Fin cfg2.N) (s : Vec F S256x1 .f32) : Vec F S256x1 .f32 :=
  View.canon [⟨wholeCnts, k2_pay2 (k2_pay6 (blk V c 5 t)) k2_pay7 s⟩]

noncomputable abbrev first : Fin cfg2.N := ⟨0, Nat.lt_of_lt_of_eq (by omega : 0 < 50) N_2.symm⟩

noncomputable def sumsAt (c : Dev nD) : ℕ → Vec F S256x64 .f32
  | 0 => sumsStep V c first (View.canon [⟨wholeSums, k2_pay4⟩])
  | n + 1 => if h : n + 1 < cfg2.N then sumsStep V c ⟨n + 1, h⟩ (sumsAt c n) else sumsAt c n

noncomputable def cntsAt (c : Dev nD) : ℕ → Vec F S256x1 .f32
  | 0 => cntsStep V c first (View.canon [⟨wholeCnts, k2_pay5⟩])
  | n + 1 => if h : n + 1 < cfg2.N then cntsStep V c ⟨n + 1, h⟩ (cntsAt c n) else cntsAt c n

noncomputable abbrev last : Fin cfg2.N := ⟨49, Nat.lt_of_lt_of_eq (by omega : 49 < 50) N_2.symm⟩

noncomputable def outTile (c : Dev nD) : Vec F S256x1 .f32 :=
  View.canon [⟨wholeCnts, k2_pay3 (sumsAt V c 49) (cntsAt V c 49) (blk V c 6 last) (blk V c 7 last)⟩]

-- A buffer held whole, at the full share, at contents `x`.
abbrev own (c : Dev nD) {sh : Shape} {e : EltTy} (m : Memref sig .tc .vmem sh e) (x : Vec F sh e) : sProp 𝕄 :=
  owns (c : Thread nD τ) m fullShare x

def others (c : Dev nD) : sProp 𝕄 := Pipeline.scopedRestBut spec2 c [cc2_scratch0, cc2_scratch1]

def inv (c : Dev nD) : ℕ → sProp 𝕄
  | 0 => Pipeline.ΦA spec2 c
  | n + 1 => iprop(((own c sumsM (sumsAt V c n) ∗ own c cntsM (cntsAt V c n)) ∗ others (F := F) c) ∗ ∃ r, prngReg c r)

noncomputable def dat (c : Dev nD) : Dat τ (Elt F) Unit ℕ (UR sig nD τ) ℕ cfg2 c where
  A w := V c (Pipeline.arrRef spec2 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => blk V c 6 t
    | ⟨7, _⟩ => blk V c 7 t
    | ⟨8, _⟩ => outTile V c
  Φ t := inv V c t.val
  q _ := fullShare
  owed _ := 0

theorem dat_A (c : Dev nD) (w : Fin cfg2.W) : (dat V c).A w = V c (Pipeline.arrRef spec2 w) := rfl
theorem dat_after_out (c : Dev nD) (t : Fin cfg2.N) : (dat V c).after 8 t = outTile V c := rfl
theorem dat_phi_first (c : Dev nD) : (dat V c).Φ 0 = Pipeline.ΦA spec2 c := rfl

noncomputable abbrev wholeTile : Rect S2000x64 := Rect.unit (s := S2000x64) ![0, 0] S2000x64.size inb_S2000x64_S2000x64_0_0
noncomputable abbrev wholeCol : Rect S2000x1 := Rect.unit (s := S2000x1) ![0, 0] S2000x1.size inb_S2000x1_S2000x1_0_0
noncomputable abbrev wholeRow : Rect S1x64 := Rect.unit (s := S1x64) ![0, 0] S1x64.size inb_S1x64_S1x64_0_0
noncomputable abbrev wholeHead : Rect S64x1 := Rect.unit (s := S64x1) ![0, 0] S64x1.size inb_S64x1_S64x1_0_0
noncomputable abbrev wholeBias : Rect S1x1 := Rect.unit (s := S1x1) ![0, 0] S1x1.size inb_S1x1_S1x1_0_0

theorem zz : (![0, 0] : Fin 2 → Nat) = fun _ => 0 := funext fun a => by fin_cases a <;> rfl

section
variable {sz : Fin 2 → Nat} {e : EltTy} (inb : ∀ a, (![0, 0] : Fin 2 → Nat) a + sz a ≤ sz a)

-- A load through the rectangle that is the whole buffer reads the contents.
theorem ld_zz (X : (⟨2, sz⟩ : Shape).Idx → Elt F e) : View.ld X (Rect.unit (s := ⟨2, sz⟩) ![0, 0] sz inb) = X :=
  View.ld_unit_zero (S := ⟨2, sz⟩) zz inb X

-- The last store through it is what is left, whatever was stored before.
theorem canon_zz (w : (⟨2, sz⟩ : Shape).Idx → Elt F e) (L : List (View.Piece (Elt F) ⟨2, sz⟩ e)) :
    View.canon ((⟨Rect.unit (s := ⟨2, sz⟩) ![0, 0] sz inb, w⟩ : View.Piece (Elt F) ⟨2, sz⟩ e) :: L) = w :=
  View.canon_cons_unit_zero (S := ⟨2, sz⟩) zz inb w L

-- So a buffer reads, after stores the last of which went through it, that store's payload.
theorem read_zz (v : View sig .tc .vmem ⟨2, sz⟩ e) (f : v.ty.Contents (Elt F)) (w : (⟨2, sz⟩ : Shape).Idx → Elt F e)
    (L : List (View.Piece (Elt F) ⟨2, sz⟩ e)) :
    v.read (Elt F) (v.writes (Elt F) f ((⟨Rect.unit (s := ⟨2, sz⟩) ![0, 0] sz inb, w⟩ : View.Piece (Elt F) ⟨2, sz⟩ e) :: L)) = w :=
  (View.read_writes_eq_canon _ _ _ fun y => ⟨_, List.mem_cons_self, View.mem_set_unit_zero (S := ⟨2, sz⟩) zz inb y⟩).trans
    (canon_zz inb w L)
end

abbrev atFirst (i : grid2.Coords) : Prop := (Scalar.cmpi .ne (Scalar.extui (Scalar.cmpi .eq (BitVec.ofNat 32 (i 0).val) 0#32)) 0#32) = 1#1
abbrev atLast (i : grid2.Coords) : Prop := k2_cond2 i = 1#1

theorem atFirst_iff : ∀ t : Fin cfg2.N, atFirst (grid2.coords t) ↔ t.val = 0 :=
  (by decide +kernel : ∀ t : Fin grid2.N, atFirst (grid2.coords t) ↔ t.val = 0)
theorem atLast_iff : ∀ t : Fin cfg2.N, atLast (grid2.coords t) ↔ t.val = 49 :=
  (by decide +kernel : ∀ t : Fin grid2.N, atLast (grid2.coords t) ↔ t.val = 49)

section
variable (c : Dev nD) (a1 a2 : Memref sig .tc .vmem S2000x64 .f32) (a3 : Memref sig .tc .vmem S2000x1 .f32)
  (a4 a5 : Memref sig .tc .vmem S1x64 .f32) (a6 : Memref sig .tc .vmem S2000x1 .i32) (a7 : Memref sig .tc .vmem S64x1 .f32)
  (a8 : Memref sig .tc .vmem S1x1 .f32) (a9 : Memref sig .tc .vmem S256x1 .f32) (a10 : Memref sig .tc .vmem S256x64 .f32)
  (a11 : Memref sig .tc .vmem S256x1 .f32)
  (x0 x1 : Vec F S2000x64 .f32) (x2 : Vec F S2000x1 .f32) (x3 x4 : Vec F S1x64 .f32) (x5 : Vec F S2000x1 .i32)
  (x6 : Vec F S64x1 .f32) (x7 : Vec F S1x1 .f32)

-- One point's step of each accumulator from contents `s`, `n`, and the head's value on them, over the tile's eight blocks.
noncomputable def sStep (s : Vec F S256x64 .f32) : Vec F S256x64 .f32 := View.canon [⟨wholeSums, k2_pay1 (k2_pay8 x2 x0 x1 x3 x4 x5 s)⟩]
noncomputable def nStep (n : Vec F S256x1 .f32) : Vec F S256x1 .f32 := View.canon [⟨wholeCnts, k2_pay2 (k2_pay6 x5) k2_pay7 n⟩]
noncomputable def oStep (s : Vec F S256x64 .f32) (n : Vec F S256x1 .f32) : Vec F S256x1 .f32 :=
  View.canon [⟨wholeCnts, k2_pay3 (sStep x0 x1 x2 x3 x4 x5 s) (nStep x5 n) x6 x7⟩]

-- What each store's payload is once every load through a whole-buffer rectangle is read as the contents themselves.
theorem pay_s (s S : Vec F S256x64 .f32) (hS : S = s) :
    k2_pay1 (k2_pay8 (View.ld x2 wholeCol) (View.ld x0 wholeTile) (View.ld x1 wholeTile) (View.ld x3 wholeRow) (View.ld x4 wholeRow) (View.ld x5 wholeCol) S)
      = sStep x0 x1 x2 x3 x4 x5 s := by
  subst hS; unfold sStep; rw [canon_zz]; simp only [ld_zz]

theorem pay_n (n S : Vec F S256x1 .f32) (hS : S = n) : k2_pay2 (k2_pay6 (View.ld x5 wholeCol)) k2_pay7 S = nStep x5 n := by
  subst hS; unfold nStep; rw [canon_zz]; simp only [ld_zz]

theorem pay_o (s : Vec F S256x64 .f32) (n : Vec F S256x1 .f32) (A B) (hA : A = sStep x0 x1 x2 x3 x4 x5 s) (hB : B = nStep x5 n) :
    k2_pay3 A B (View.ld x6 wholeHead) (View.ld x7 wholeBias) = oStep x0 x1 x2 x3 x4 x5 x6 x7 s n := by
  subst hA hB; unfold oStep; rw [canon_zz]; simp only [ld_zz]

-- The body's eleven buffers: the inputs' at the tile's blocks, the output's at `xo`, the accumulators at `s` and `n`.
def held (xo : Vec F S256x1 .f32) (s : Vec F S256x64 .f32) (n : Vec F S256x1 .f32) : sProp 𝕄 :=
  iprop(own c a1 x0 ∗ own c a2 x1 ∗ own c a3 x2 ∗ own c a4 x3 ∗ own c a5 x4 ∗ own c a6 x5 ∗ own c a7 x6 ∗ own c a8 x7
    ∗ own c a9 xo ∗ own c a10 s ∗ own c a11 n)

variable (i : grid2.Coords) (E : Set ℕ) (h1 : a1.IsWhole) (h2 : a2.IsWhole) (h3 : a3.IsWhole) (h4 : a4.IsWhole) (h5 : a5.IsWhole)
  (h6 : a6.IsWhole) (h7 : a7.IsWhole) (h8 : a8.IsWhole) (h9 : a9.IsWhole) (h10 : a10.IsWhole) (h11 : a11.IsWhole)

-- The body run from the eleven buffers at `xo`, `s`, `n` leaves them at `xo'`, `s'`, `n'`.
def runs (xo xo' : Vec F S256x1 .f32) (s s' : Vec F S256x64 .f32) (n n' : Vec F S256x1 .f32) : Prop :=
  ∀ K : PUnit → sProp 𝕄, iprop(held c a1 a2 a3 a4 a5 a6 a7 a8 a9 a10 a11 x0 x1 x2 x3 x4 x5 x6 x7 xo s n ∗ (held c a1 a2 a3 a4 a5 a6 a7 a8 a9 a10 a11 x0 x1 x2 x3 x4 x5 x6 x7 xo' s' n' -∗ K ⟨⟩))
    ⊢ wp frame (wpE (defs₀ (F := F)) Variants.none c none) E (cc2__bn_pool_kernel i a1 h1 a2 h2 a3 h3 a4 h4 a5 h5 a6 h6 a7 h7 a8 h8 a9 h9 a10 h10 a11 h11) K

variable {c a1 a2 a3 a4 a5 a6 a7 a8 a9 a10 a11 x0 x1 x2 x3 x4 x5 x6 x7 i E h1 h2 h3 h4 h5 h6 h7 h8 h9 h10 h11}

-- A point neither first nor last steps both accumulators and leaves every other buffer as it was.
theorem run_mid (hF : ¬atFirst i) (hL : ¬atLast i) {xo s n} : runs c a1 a2 a3 a4 a5 a6 a7 a8 a9 a10 a11 x0 x1 x2 x3 x4 x5 x6 x7 i E h1 h2 h3 h4 h5 h6 h7 h8 h9 h10 h11 xo xo s (sStep x0 x1 x2 x3 x4 x5 s) n (nStep x5 n) := fun K => by
  unfold held own; simp only [owns_eq_rep, cc2__bn_pool_kernel_eq_skeleton]; unfold cc2__bn_pool_kernel_skel
  iintro ⟨⟨H0, H1, H2, H3, H4, H5, H6, H7, HO, HS, HN⟩, Hk⟩
  sl_exec
  sl_step
  iapply Hk
  iframe
  isplitl [HS]
  · iapply rep_of_owns; unfold owns; iexists _; iframe HS
    ipureintro; exact (read_zz ..).trans ((pay_s (hS := ld_zz _ _) ..).trans (by simp only [View.read_rep]))
  iapply rep_of_owns; unfold owns; iexists _; iframe HN
  ipureintro; exact (read_zz ..).trans ((pay_n (hS := ld_zz _ _) ..).trans (by simp only [View.read_rep]))

-- The first point zeroes both accumulators before it steps them.
theorem run_first (hF : atFirst i) (hL : ¬atLast i) {xo s n} : runs c a1 a2 a3 a4 a5 a6 a7 a8 a9 a10 a11 x0 x1 x2 x3 x4 x5 x6 x7 i E h1 h2 h3 h4 h5 h6 h7 h8 h9 h10 h11 xo xo s (sStep x0 x1 x2 x3 x4 x5 k2_pay4) n (nStep x5 k2_pay5) := fun K => by
  unfold held own; simp only [owns_eq_rep, cc2__bn_pool_kernel_eq_skeleton]; unfold cc2__bn_pool_kernel_skel
  iintro ⟨⟨H0, H1, H2, H3, H4, H5, H6, H7, HO, HS, HN⟩, Hk⟩
  sl_exec
  sl_step
  iapply Hk
  iframe
  isplitl [HS]
  · iapply rep_of_owns; unfold owns; iexists _; iframe HS
    ipureintro
    exact (read_zz ..).trans ((pay_s (hS := View.readCov_cons_toLoadRect ..) ..).trans (by simp only [View.read_rep]))
  iapply rep_of_owns; unfold owns; iexists _; iframe HN
  ipureintro
  exact (read_zz ..).trans ((pay_n (hS := View.readCov_cons_toLoadRect ..) ..).trans (by simp only [View.read_rep]))

-- The last point steps both accumulators, then stores the head's value on them into the output's buffer.
theorem run_last (hF : ¬atFirst i) (hL : atLast i) {xo s n} :
    runs c a1 a2 a3 a4 a5 a6 a7 a8 a9 a10 a11 x0 x1 x2 x3 x4 x5 x6 x7 i E h1 h2 h3 h4 h5 h6 h7 h8 h9 h10 h11 xo (oStep x0 x1 x2 x3 x4 x5 x6 x7 s n) s (sStep x0 x1 x2 x3 x4 x5 s) n (nStep x5 n) := fun K => by
  unfold held own; simp only [owns_eq_rep, cc2__bn_pool_kernel_eq_skeleton]; unfold cc2__bn_pool_kernel_skel
  iintro ⟨⟨H0, H1, H2, H3, H4, H5, H6, H7, HO, HS, HN⟩, Hk⟩
  sl_exec
  sl_step
  iapply Hk
  iframe
  isplitl [HO]
  · iapply rep_of_owns; unfold owns; iexists _; iframe HO
    ipureintro; exact (read_zz ..).trans ((pay_o (hA := (View.readCov_cons_toLoadRect ..).trans (pay_s (hS := ld_zz _ _) ..))
      (hB := (View.readCov_cons_toLoadRect ..).trans (pay_n (hS := ld_zz _ _) ..)) ..).trans (by simp only [View.read_rep]))
  isplitl [HS]
  · iapply rep_of_owns; unfold owns; iexists _; iframe HS
    ipureintro; exact (read_zz ..).trans ((pay_s (hS := ld_zz _ _) ..).trans (by simp only [View.read_rep]))
  iapply rep_of_owns; unfold owns; iexists _; iframe HN
  ipureintro; exact (read_zz ..).trans ((pay_n (hS := ld_zz _ _) ..).trans (by simp only [View.read_rep]))

end

theorem before_in (c : Dev nD) (t : Fin cfg2.N) : ∀ w : Fin cfg2.W, w ≠ 8 → ∀ d, (dat V c).before w t d = (dat V c).after w t
  | ⟨8, _⟩, h, _ => absurd rfl h
  | ⟨0, _⟩, _, d | ⟨1, _⟩, _, d | ⟨2, _⟩, _, d | ⟨3, _⟩, _, d | ⟨4, _⟩, _, d | ⟨5, _⟩, _, d | ⟨6, _⟩, _, d | ⟨7, _⟩, _, d =>
    ((dat V c).before_in_eq_fetched _ rfl (fun _ => rfl) (fun _ _ _ => rfl) (fun _ => rfl) t d).trans rfl

theorem leaves_in (c : Dev nD) (t : Fin cfg2.N) : ∀ w : Fin cfg2.W, w ≠ 8 →
    (dat V c).leavesExact w t = owns (c : Thread nD τ) ((cfg2.win w).stage (cfg2.slots t w)) fullShare ((dat V c).after w t)
  | ⟨8, _⟩, h => absurd rfl h
  | ⟨0, _⟩, _ | ⟨1, _⟩, _ | ⟨2, _⟩, _ | ⟨3, _⟩, _ | ⟨4, _⟩, _ | ⟨5, _⟩, _ | ⟨6, _⟩, _ | ⟨7, _⟩, _ => rfl

theorem at_zero (c : Dev nD) (t : Fin cfg2.N) (h : t.val = 0) :
    sumsAt V c t.val = sStep ((dat V c).after 0 t) ((dat V c).after 1 t) ((dat V c).after 2 t) ((dat V c).after 3 t) ((dat V c).after 4 t) ((dat V c).after 5 t) k2_pay4 ∧ cntsAt V c t.val = nStep ((dat V c).after 5 t) k2_pay5 := by
  obtain ⟨n, hn⟩ := t
  obtain rfl : n = 0 := h
  exact ⟨congrArg (sStep _ _ _ _ _ _) (canon_zz _ _ _), congrArg (nStep _) (canon_zz _ _ _)⟩

theorem at_pos (c : Dev nD) (t : Fin cfg2.N) (h : t.val ≠ 0) :
    sumsAt V c t.val = sStep ((dat V c).after 0 t) ((dat V c).after 1 t) ((dat V c).after 2 t) ((dat V c).after 3 t) ((dat V c).after 4 t) ((dat V c).after 5 t) (sumsAt V c (t.val - 1)) ∧ cntsAt V c t.val = nStep ((dat V c).after 5 t) (cntsAt V c (t.val - 1)) := by
  obtain ⟨n, hn⟩ := t
  cases n with
  | zero => exact absurd rfl h
  | succ n => exact ⟨(dif_pos hn).trans rfl, (dif_pos hn).trans rfl⟩

theorem outTile_at (c : Dev nD) (t : Fin cfg2.N) (h : t.val = 49) (h0 : t.val ≠ 0) :
    outTile V c = oStep ((dat V c).after 0 t) ((dat V c).after 1 t) ((dat V c).after 2 t) ((dat V c).after 3 t) ((dat V c).after 4 t) ((dat V c).after 5 t) ((dat V c).after 6 t) ((dat V c).after 7 t) (sumsAt V c (t.val - 1)) (cntsAt V c (t.val - 1)) := by
  obtain ⟨n, hn⟩ := t
  obtain rfl : n = 49 := h
  rfl

-- Both accumulators are among the buffers the first point's invariant holds at some contents.
theorem PhiA_split (c : Dev nD) :
    (Pipeline.ΦA spec2 c : sProp 𝕄)
      = iprop((((∃ d, own c sumsM d) ∗ (∃ d, own c cntsM d)) ∗ others (F := F) c) ∗ ∃ r, prngReg c r) := by
  unfold Pipeline.ΦA others
  rw [Pipeline.scopedRest_split_of_list spec2 c [cc2_scratch0, cc2_scratch1] (by decide) (by decide)]
  simp only [own, sumsM, cntsM, owns_whole]; rfl

theorem idle_out : ∀ t : Fin cfg2.N, t.val ≠ 49 → cfg2.idle 8 (cfg2.grid.coords t) = true := by decide +kernel
theorem noflush_out : ∀ t : Fin cfg2.N, t.val ≠ 49 → (cfg2.win 8).flush t = false := by decide +kernel
theorem live_out : ∀ t : Fin cfg2.N, t.val = 49 → cfg2.idle 8 (cfg2.grid.coords t) = false := by decide +kernel

theorem leaves_out (c : Dev nD) (t : Fin cfg2.N) (h : t.val = 49) :
    (dat V c).leavesExact 8 t = own c (st2_8 t) (outTile V c) := by
  unfold Dat.leavesExact; rw [live_out t h, dat_after_out]

theorem dat_phi_last (c : Dev nD) : (dat V c).Φ (Fin.last _) ⊢ (Pipeline.ΦA spec2 c : sProp 𝕄) := by
  show inv V c (49 + 1) ⊢ _
  rw [inv, PhiA_split]
  iintro ⟨⟨⟨HS, HN⟩, HO⟩, Hg⟩
  iframe
  isplitl [HS] <;> iexists _ <;> iassumption

-- The point is the first, the last or neither; that case's run takes the accumulators from the invariant and gives them back one step on.
theorem sound_body (c : Dev nD) (t : Fin cfg2.N) :
    iprop(inv V c t.val ∗ (dat V c).owesAt () t.castSucc
        ∗ bigSep Finset.univ fun w : Fin cfg2.W => iprop(∃ d, owns (c : Thread nD τ) ((cfg2.win w).stage (cfg2.slots t w)) fullShare ((dat V c).before w t d)))
      ⊢ wp frame (wpE (defs₀ (F := F)) Variants.none c none) Set.univ (bodyAt2 t) fun _ =>
          iprop(inv V c (t.val + 1) ∗ (dat V c).owesAt () t.castSucc ∗ bigSep Finset.univ fun w : Fin cfg2.W => (dat V c).leavesExact w t) := by
  rw [bigSep_W2, bigSep_W2, inv]
  simp (disch := decide) only [before_in, leaves_in]
  by_cases h0 : t.val = 0
  · have h49 : t.val ≠ 49 := by omega
    rw [Dat.leavesExact_idle (dat V c) 8 t (idle_out t h49) (noflush_out t h49), (at_zero V c t h0).1, (at_zero V c t h0).2,
      show inv V c t.val = Pipeline.ΦA spec2 c from by rw [h0]; rfl, PhiA_split]
    iintro ⟨⟨⟨⟨⟨%ds, HS⟩, ⟨%dn, HN⟩⟩, HO⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (run_first ((atFirst_iff t).mpr h0) (mt (atLast_iff t).mp h49) _)
    unfold held own
    iframe
    iintro ⟨H0, H1, H2, H3, H4, H5, H6, H7, H8, HS, HN⟩
    iframe
    iexists _; iexact H8
  · have hF := mt (atFirst_iff t).mp h0
    rw [show inv V c t.val = inv V c (t.val - 1 + 1) from by rw [Nat.sub_add_cancel (Nat.pos_of_ne_zero h0)], inv,
      (at_pos V c t h0).1, (at_pos V c t h0).2]
    by_cases h49 : t.val = 49
    · rw [leaves_out V c t h49, outTile_at V c t h49 h0]
      iintro ⟨⟨⟨⟨HS, HN⟩, HO⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (run_last hF ((atLast_iff t).mpr h49) _)
      unfold held own
      iframe
      iintro ⟨H0, H1, H2, H3, H4, H5, H6, H7, H8, HS, HN⟩
      iframe
    · rw [Dat.leavesExact_idle (dat V c) 8 t (idle_out t h49) (noflush_out t h49)]
      iintro ⟨⟨⟨⟨HS, HN⟩, HO⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (run_mid hF (mt (atLast_iff t).mp h49) _)
      unfold held own
      iframe
      iintro ⟨H0, H1, H2, H3, H4, H5, H6, H7, H8, HS, HN⟩
      iframe
      iexists _; iexact H8

theorem body (c : Dev nD) : BodyObligation (dat (F := F) V c) (defs₀ (F := F)) Variants.none () Set.univ := sound_body V c

end Cert.KernelIdeal.NormPool

end
-- ==== Proof.KI.Launch.lean ====
import proofs.«404818_j7687991460117_2_alg».proof.Proof.KI.Proj1
import proofs.«404818_j7687991460117_2_alg».proof.Proof.KI.NormProj2
import proofs.«404818_j7687991460117_2_alg».proof.Proof.KI.NormPool
import proofs.«404818_j7687991460117_2_alg».proof.Proof.Gen.KernelIdeal.Regions
import Idealize.ShloMosaic.Lib.Pipeline.Regions
import Idealize.ShloMosaic.Lib.Pipeline.RegionsLoop
import Idealize.ShloMosaic.Lib.Pipeline.FrameSuffix
import Idealize.ShloMosaic.Adequacy
import Idealize.ShloMosaic.Init

noncomputable section

namespace Cert.KernelIdeal.Run

open Gen
open Idealize.ShloMosaic Idealize.ShloMosaic.TcCoe
open Idealize.SL Idealize.SL.RA Idealize.SL.BI
open Idealize.SL.BI.BIBase Idealize.SL.BI.Laws Idealize.SL.ProofMode Idealize.SL.Sem
open Idealize.ShloMosaic.Rounds
open Idealize.ShloMosaic.Pipeline (Dat cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

noncomputable abbrev at0 : Dev nD → Valuation τ sig (Elt F) := fun c b => m (c, b)

noncomputable abbrev at1 : Dev nD → Valuation τ sig (Elt F) := fun c => StableHlo.after hostOps0 (at0 m c)

noncomputable abbrev in1 : (c : Dev nD) → (b : Ref sig .tc) → Buf (Elt F) ((c : Thread nD τ).loc b) := fun c b => at1 m c b

noncomputable def at2 (c : Dev nD) : Valuation τ sig (Elt F) :=
  Pipeline.withArrays spec0 c (at1 m c) fun w => (Proj1.dat (in1 m) c).arrAt w cfg0.N

noncomputable abbrev at3 : Dev nD → Valuation τ sig (Elt F) := fun c => StableHlo.after hostOps1 (at2 m c)
noncomputable abbrev in3 : (c : Dev nD) → (b : Ref sig .tc) → Buf (Elt F) ((c : Thread nD τ).loc b) := fun c b => at3 m c b

noncomputable def at4 (c : Dev nD) : Valuation τ sig (Elt F) :=
  Pipeline.withArrays spec1 c (at3 m c) fun w => (NormProj2.dat (in3 m) c).arrAt w cfg1.N

noncomputable abbrev at5 : Dev nD → Valuation τ sig (Elt F) := fun c => StableHlo.after hostOps2 (at4 m c)
noncomputable abbrev in5 : (c : Dev nD) → (b : Ref sig .tc) → Buf (Elt F) ((c : Thread nD τ).loc b) := fun c b => at5 m c b

noncomputable def at6 (c : Dev nD) : Valuation τ sig (Elt F) :=
  Pipeline.withArrays spec2 c (at5 m c) fun w => (NormPool.dat (in5 m) c).arrAt w cfg2.N

noncomputable abbrev at7 : Dev nD → Valuation τ sig (Elt F) := fun c => StableHlo.after hostOps3 (at6 m c)

theorem ends_as_launched (c : Dev nD) (r : Ref sig .tc)
    (h0 : r ∉ hostOps0_W) (h1 : r ∉ hostOps1_W) (h2 : r ∉ hostOps2_W) (h3 : r ∉ hostOps3_W)
    (k0 : at2 m c (Proc.devRef .tc r) = at1 m c (Proc.devRef .tc r))
    (k1 : ∀ w, Pipeline.arrRef spec1 w ≠ r) (k2 : ∀ w, Pipeline.arrRef spec2 w ≠ r) :
    at7 m c (Proc.devRef .tc r) = m ((c.tc : Thread nD τ).loc r) :=
  (StableHlo.after_of_writes_sub hostOps3 _ hostOps3_writes h3).trans <| (Pipeline.withArrays_of_ne spec2 c _ _ r k2).trans <|
    (StableHlo.after_of_writes_sub hostOps2 _ hostOps2_writes h2).trans <| (Pipeline.withArrays_of_ne spec1 c _ _ r k1).trans <|
    (StableHlo.after_of_writes_sub hostOps1 _ hostOps1_writes h1).trans <| k0.trans <|
    StableHlo.after_of_writes_sub hostOps0 _ hostOps0_writes h0

noncomputable abbrev noPairs : GSem nD τ sig → Finset Unit := fun _ => ∅
noncomputable abbrev noLevel : GSem nD τ sig → Unit → ℕ := fun _ _ => 0

noncomputable abbrev carried (c : Dev nD) : sProp 𝕄 :=
  iprop((∃ r, prngReg c r) ∗ ∃ W, owes (c : Thread nD τ) (0 : CellTallies nD τ sig Unit) W)

noncomputable abbrev stretch (ops : List (HloOp τ sig (Elt F))) (hsub : ops.Forall fun op => op.bufs ⊆ StableHlo.tcRefs τ sig)
    (hfresh : ops.Forall fun op => op.fresh = ∅) (V : Dev nD → Valuation τ sig (Elt F)) :
    Pipeline.HostSeg (Name := ℕ) (U := UR sig nD τ) (pcfgs (F := F)) defs₀ Variants.none noPairs noLevel :=
  Pipeline.HostSeg.ofOps _ _ _ _ _ (Pipeline.ucRefs τ sig) ops
    (fun op h => Pipeline.sub_ucRefs op ((List.forall_iff_forall_mem.mp hsub) op h))
    (List.forall_iff_forall_mem.mp hfresh) V carried

noncomputable def data : (p : Fin 3) → (c : Dev nD) → Dat τ (Elt F) Unit ℕ (UR sig nD τ) ℕ (Pipeline.pin (pcfgs (F := F)) adm p) c
  | ⟨0, _⟩ => fun c => Proj1.dat (in1 m) c
  | ⟨1, _⟩ => fun c => NormProj2.dat (in3 m) c
  | ⟨2, _⟩ => fun c => NormPool.dat (in5 m) c

noncomputable abbrev regionOut (p : Fin 3) (Vin : Dev nD → Valuation τ sig (Elt F)) (c : Dev nD) : Valuation τ sig (Elt F) :=
  Pipeline.withArrays (cfgs p).spec c (Vin c) fun w => (data m p c).arrAt w (cfgs p).N

set_option backward.isDefEq.respectTransparency.types false in
noncomputable def kernelItem (p : Fin 3) (lay : Pipeline.LaunchFacts (nD := nD) (τ := τ) cfgs p) (Vin : Dev nD → Valuation τ sig (Elt F))
    (hbody : ∀ c, Pipeline.BodyObligationLoose (data m p c) (defs₀ (F := F)) Variants.none () Set.univ)
    (hq : ∀ c w, (data m p c).q w = fullShare) (howed : ∀ c t, (data m p c).owed t = 0)
    (hrec : ∀ c x, x ∈ (data m p c).recorded 0)
    (hA : ∀ c w, (data m p c).A w = Vin c (Proc.devRef .tc (Pipeline.arrRef (cfgs p).spec w)))
    (hfirst : ∀ c, (data m p c).Φ 0 = Pipeline.ΦA (cfgs p).spec c)
    (hlast : ∀ c, (data m p c).Φ (Fin.last _) ⊢ (Pipeline.ΦA (cfgs p).spec c : sProp 𝕄)) :
    Pipeline.RegionSeg (pcfgs (F := F)) adm (data m) () defs₀ Variants.none noPairs noLevel p where
  win := lay.win.to₀
  block_pos := lay.block_pos
  stage_whole := lay.stage_whole
  K := PEmpty
  osem k := k.elim
  ho := Pipeline.OwnSemFacts.none _
  hbody := hbody
  hwaits := Pipeline.hwaits_of_owed_zero _ _ _ _ noPairs noLevel p howed
  pre c := iprop(StableHlo.held (c : Thread nD τ) (Pipeline.ucRefs τ sig) (Vin c) ∗ carried c)
  post c := iprop(StableHlo.held (c : Thread nD τ) (Pipeline.ucRefs τ sig) (regionOut m p Vin c) ∗ carried c)
  X c := iprop(∃ r, prngReg c r)
  Y c := iprop(∃ r, prngReg c r)
  Z c := Pipeline.unscopedRest (Ix := Unit) (Name := ℕ) (U := UR sig nD τ) (Lvl := ℕ) (cfgs p).spec c (fun b => Vin c b)
  hentry c := by
    rw [Pipeline.ownSems0_none]
    have hsplit := Pipeline.arrays_of_unscopedBufs (p := p) (pcfgs (F := F)) adm (data m) lay.win lay.arr_whole c
      ((data m p c).share_full (hq c)) (fun b => Vin c b) (hA c)
    rw [Pipeline.unscopedBufs_held] at hsplit
    iintro ⟨⟨Hbufs, Hreg, Howes⟩, -, -⟩
    ihave H := hsplit $$ Hbufs
    icases H with ⟨Harr, Hrest⟩
    imodintro
    iframe Harr Hreg Hrest
    isplitr
    · unfold Pipeline.prefHeld; rw [show (Finset.univ : Finset (Fin 0)) = ∅ from rfl, BI.bigSep_empty]; iempintro
    unfold Pipeline.Dat.owesAt Pipeline.owesWithin
    rw [howed c 0]
    icases Howes with ⟨%W, Howes⟩; iexists W; isplitr; · ipureintro; exact fun x _ => Or.inl (hrec c x)
    iexact Howes
  hin c := by
    rw [hfirst c]; unfold Pipeline.ΦA
    iintro ⟨Hreg, -, Hscoped⟩
    iframe
  hout c := by
    rw [Pipeline.ownSems0_none]
    refine (hlast c).trans ?_
    unfold Pipeline.ΦA
    iintro ⟨Hscoped, Hreg⟩
    iframe
    iempintro
  hexit c := by
    have hjoin := Pipeline.unscopedBufs_of_arrays (p := p) (pcfgs (F := F)) adm (Ix := Unit) (Name := ℕ) (U := UR sig nD τ) (Lvl := ℕ)
      lay.win lay.arr_whole c (data m) ((data m p c).share_full (hq c))
      (fun b => Vin c b) (fun b => regionOut m p Vin c b) ((data m p c).arrAt · (cfgs p).N)
      (fun w => (Pipeline.withArrays_arr (cfgs p).spec lay.win.arr_inj c (Vin c) ((data m p c).arrAt · (cfgs p).N) w).symm)
      (fun b hb => Pipeline.withArrays_of_ne (cfgs p).spec c (Vin c) ((data m p c).arrAt · (cfgs p).N) b fun w e => hb (Finset.mem_image.mpr ⟨w, Finset.mem_univ _, e⟩))
    rw [Pipeline.unscopedBufs_held] at hjoin
    iintro ⟨Harr, Howes, Hreg, Hrest⟩
    imodintro
    isplitl [Harr Hrest]
    · iapply hjoin; iframe
    isplitl [Hreg]; · iexact Hreg
    unfold Pipeline.Dat.owesAt Pipeline.owesWithin
    rw [howed c (Fin.last _)]
    icases Howes with ⟨%W, -, Howes⟩; iexists W; iexact Howes

noncomputable abbrev items : List (Pipeline.Seg (pcfgs (F := F)) adm (data m) () defs₀ Variants.none noPairs noLevel) :=
  [ .host (stretch hostOps0 hostOps0_sub hostOps0_fresh (at0 m)),
    .region (kernelItem m 0 launch0 (at1 m) (fun c => (Proj1.body (in1 m) c).loose)
      (fun _ _ => rfl) (fun _ _ => rfl) (fun _ _ => trivial)
      (Proj1.dat_A (in1 m)) (Proj1.dat_phi_first (in1 m)) (Proj1.dat_phi_last (in1 m))),
    .host (stretch hostOps1 hostOps1_sub hostOps1_fresh (at2 m)),
    .region (kernelItem m 1 launch1 (at3 m) (fun c => (NormProj2.body (in3 m) c).loose)
      (fun _ _ => rfl) (fun _ _ => rfl) (fun _ _ => trivial)
      (NormProj2.dat_A (in3 m)) (NormProj2.dat_phi_first (in3 m)) (NormProj2.dat_phi_last (in3 m))),
    .host (stretch hostOps2 hostOps2_sub hostOps2_fresh (at4 m)),
    .region (kernelItem m 2 launch2 (at5 m) (fun c => (NormPool.body (in5 m) c).loose)
      (fun _ _ => rfl) (fun _ _ => rfl) (fun _ _ => trivial)
      (NormPool.dat_A (in5 m)) (NormPool.dat_phi_first (in5 m)) (NormPool.dat_phi_last (in5 m))),
    .host (stretch hostOps3 hostOps3_sub hostOps3_fresh (at6 m)) ]

theorem main_items (c : Dev nD) : main (F := F) c = Pipeline.Seg.run (items m) := (main_chain c).trans (by chain_rfl)

set_option backward.isDefEq.respectTransparency.types false in

theorem run : θ_run defs (onTc (τ := τ) (main (F := F))) ⟨m, fun _ => 0, ρ⟩ (fun r => ∀ c : Dev nD,
      ∀ b ∈ Pipeline.ucRefs τ sig, r.2.mem ((c : Thread nD τ).1, b) = at7 m c b) :=
  Pipeline.θ_run_regions_kit (pcfgs (F := F)) adm (data m) () cellOf_inj emb₁ defs₀ Variants.none noPairs noLevel m ρ main (items m)
    (fun c Q => by rw [main_items m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (at0 m c) ∗ carried c))
    (Tₙ := fun c => iprop(StableHlo.held (c : Thread nD τ) (Pipeline.ucRefs τ sig) (at7 m c) ∗ ∃ r, prngReg c r))
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (at7 m c) ∗ carried c) ⊢ _
      iintro ⟨Hbufs, Hreg, Howes⟩
      isplitr [Howes]
      · isplitl [Hbufs] <;> iassumption
      iexact Howes⟩)
    (hinit := by
      refine Pipeline.initEach noPairs noLevel fun c => ?_
      rw [show unscopedBufs c (fun b => m ((c : Thread nD τ).loc b)) = StableHlo.held (c : Thread nD τ) (Pipeline.ucRefs τ sig) (at0 m c)
        from Pipeline.unscopedBufs_held c (at0 m c)]
      iintro ⟨⟨Hbufs, -, Howes, -, Hreg, -⟩, -⟩
      imodintro
      iframe Hbufs
      isplitl [Hreg]; · iexists _; iexact Hreg
      iexists ∅; iexact Howes)
    (QY := fun c s => ∀ b ∈ Pipeline.ucRefs τ sig, s.mem (((c : Thread nD τ)).1, b) = at7 m c b)
    (hfin := fun c s' => by
      iintro ⟨⟨Hbufs, -⟩, HSI⟩
      unfold StableHlo.held
      imodintro
      iapply (pointsTo_read_all (Pipeline.ucRefs τ sig) (fun b => (((c : Thread nD τ)).1, b)) (at7 m c) s')
      isplitl [Hbufs] <;> iassumption)
    (hQ := fun s h => h)

noncomputable def kept (r : PUnit × MemSt nD τ sig (Elt F)) (c : Dev nD) : Prop :=
  [main_arg0, main_arg1, main_arg2, main_arg3, main_arg4, main_arg5, main_arg6, main_arg7, main_arg8, main_arg9, main_arg10, main_arg11,
    main_arg12, main_arg13, main_arg14, main_arg15, main_arg16].Forall fun x =>
      r.2.mem ((c.tc : Thread nD τ).loc x) = m ((c.tc : Thread nD τ).loc x)

theorem final_at {r : PUnit × MemSt nD τ sig (Elt F)}
    (hr : ∀ c : Dev nD, ∀ b ∈ Pipeline.ucRefs τ sig, r.2.mem ((c : Thread nD τ).1, b) = at7 m c b)
    (c : Dev nD) (x : Ref sig .tc) (hx : ¬ (Proc.devRef .tc x : DevRef τ sig).isScoped) :
    r.2.mem ((c.tc : Thread nD τ).loc x) = at7 m c (Proc.devRef .tc x) :=
  hr c _ (Finset.mem_filter.mpr ⟨StableHlo.devRef_mem_tcRefs x, hx⟩)

-- The result buffer ends at `at7`; every argument is written by no host operation and changed by no kernel region.
theorem run_result : θ_run defs (onTc (τ := τ) (main (F := F))) ⟨m, fun _ => 0, ρ⟩ (fun r => ∀ c : Dev nD,
      r.2.mem ((c.tc : Thread nD τ).loc main_v60) = at7 m c (Proc.devRef .tc main_v60) ∧ kept m r c) := by
  refine (θ_run defs _ _).mono (fun r hr c => ⟨final_at m hr c main_v60 (by decide),
    (final_at m hr c main_arg0 (by decide)).trans (ends_as_launched m c main_arg0 (by decide) (by decide) (by decide)
      (by decide) ((Pipeline.withArrays_arr spec0 launch0.win.arr_inj c _ _ 0).trans
        (((Proj1.dat (in1 m) c).arrAt_in 0 rfl _).trans (Proj1.dat_A (in1 m) c 0))) (by decide) (by decide)), ?_⟩) (run m ρ)
  repeat' apply And.intro
  all_goals exact (final_at m hr c _ (by decide)).trans <|
    ends_as_launched m c _ (by decide) (by decide) (by decide) (by decide) (Pipeline.withArrays_of_ne spec0 c _ _ _ (by decide)) (by decide) (by decide)

theorem frame : θ_run defs (onTc (τ := τ) (main (F := F))) ⟨m, fun _ => 0, ρ⟩ (fun r => ∀ c : Dev nD, kept m r c) :=
  (θ_run defs _ _).mono (fun _ h c => (h c).2) (run_result m ρ)

end Cert.KernelIdeal.Run

end
-- ==== Proof.Ref.Imports.lean ====
import proofs.«404818_j7687991460117_2_alg».proof.Proof.Gen.ReferenceIdeal.Run
import proofs.«404818_j7687991460117_2_alg».proof.Proof.Gen.ReferenceIdeal.Read
-- ==== Proof.KI.Tiles.lean ====
import Idealize.ShloMosaic.Lib.Pipeline.Value
import Idealize.ShloMosaic.Lib.ValueIdx
import Idealize.ShloMosaic.Lib.ValueLayout
import Idealize.ShloMosaic.PureOps.Ideal.Laws

open scoped BigOperators

namespace Cert.KernelIdeal

open Idealize.ShloMosaic Idealize.ShloMosaic.TcCoe Idealize.ShloMosaic.ValueIdx

-- An M×K by K×N product into the zero accumulator, at (p, q): the sum over the K inner positions.
theorem matmul_plain_apply {M K N : ℕ} {φ₁ φ₂ : FTy} (D : DotDims ⟨2, ![M, K]⟩ ⟨2, ![K, N]⟩ ⟨2, ![M, N]⟩)
    (hD : D = DotDims.plain M K N) (prec : Option ContractPrecision) (a : FVec Ideal ⟨2, ![M, K]⟩ φ₁)
    (b : FVec Ideal ⟨2, ![K, N]⟩ φ₂) (p : Fin M) (q : Fin N) :
    matmul D prec a b (constant (F := Ideal) ⟨2, ![M, N]⟩ .f32 0x00000000#32) (ix2 p q)
      = ∑ k : Fin K, a (ix2 p k) * b (ix2 k q) := by
  subst hD
  simp only [matmul]
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  rw [show (DotDims.plain M K N).lhsIdx (ix2 p q) ((contrEquiv1 (DotDims.plain M K N) K rfl rfl).symm k) = ix2 p k from
      Shape.idx_ext₂ rfl hk,
    show (DotDims.plain M K N).rhsIdx (ix2 p q) ((contrEquiv1 (DotDims.plain M K N) K rfl rfl).symm k) = ix2 k q from
      Shape.idx_ext₂ hk rfl]

-- One column spread over many reads, at (p, c), the column's row p.
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

-- Fifty tiles of 2000 rows make up 100000 rows: row p of tile t is row t·2000 + p, and every row is one of these.
noncomputable def row (t : Fin 50) (p : Fin 2000) : Fin 100000 := ⟨t.val * 2000 + p.val, by omega⟩

theorem rows_cover {C : ℕ} (S : Fin 50 → Finset (⟨2, ![100000, C]⟩ : Shape).Idx) (h : ∀ t p q, ix2 (row t p) q ∈ S t)
    (i : (⟨2, ![100000, C]⟩ : Shape).Idx) : ∃ t, i ∈ S t := by
  obtain ⟨r, j, rfl⟩ : ∃ (r : Fin 100000) (j : Fin C), i = ix2 r j := ⟨i 0, i 1, eq_ix2 i⟩
  have := r.isLt
  obtain ⟨t, p, rfl⟩ : ∃ t p, r = row t p := ⟨⟨r.val / 2000, by omega⟩, ⟨r.val % 2000, Nat.mod_lt _ (by decide)⟩,
    Fin.ext (by show r.val = r.val / 2000 * 2000 + r.val % 2000; omega)⟩
  exact ⟨t, h t p j⟩

theorem origin : (![0, 0] : Fin 2 → Nat) = fun _ => 0 := funext fun a => by fin_cases a <;> rfl

end Cert.KernelIdeal
-- ==== Proof.KI.Proj1Value.lean ====
import proofs.«404818_j7687991460117_2_alg».proof.Proof.KI.Proj1
import proofs.«404818_j7687991460117_2_alg».proof.Proof.KI.Tiles

noncomputable section

open scoped BigOperators

namespace Cert.KernelIdeal.Proj1

open Cert.KernelIdeal Cert.KernelIdeal.Gen
open Idealize.ShloMosaic Idealize.ShloMosaic.TcCoe Idealize.ShloMosaic.ValueIdx

variable (V : (c : Dev nD) → (b : Ref sig .tc) → Buf (Elt Ideal) ((c : Thread nD τ).loc b))

noncomputable abbrev xArr (c : Dev nD) : Vec Ideal S100000x128 .f32 := V c main_arg0
noncomputable abbrev wtArr (c : Dev nD) : Vec Ideal S128x64 .f32 := V c main_v11
noncomputable abbrev dArr (c : Dev nD) : Vec Ideal S100000x1 .f32 := V c main_v12

-- Entry (p, q) of a tile: row p of the features times column q of the weights, scaled by row p's factor.
theorem pay_apply (x : Vec Ideal S2000x128 .f32) (wt : Vec Ideal S128x64 .f32) (d : Vec Ideal S2000x1 .f32) (p : Fin 2000) (q : Fin 64) :
    k0_pay1 (F := Ideal) x wt d (ix2 p q) = (∑ k : Fin 128, x (ix2 p k) * wt (ix2 k q)) * d (ix2 p (0 : Fin 1)) := by
  unfold k0_pay1
  rw [mulf_apply, shapeCast_self, shapeCast_self, broadcastTo_a1_ab_apply,
    matmul_plain_apply dot_S2000x128_S128x64_S2000x64_1_0_0_1_n_n rfl]
  rfl

noncomputable def result (c : Dev nD) : Vec Ideal S100000x64 .f32 := fun i =>
  (∑ k : Fin 128, xArr V c (ix2 (i 0) k) * wtArr V c (ix2 k (i 1))) * dArr V c (ix2 (i 0) (0 : Fin 1))

theorem block_rows : ∀ t : Fin cfg0.N,
    win0_0.index t (0 : Fin 2) = t.val ∧ win0_2.index t (0 : Fin 2) = t.val ∧ win0_3.index t (0 : Fin 2) = t.val :=
  (by decide +kernel : ∀ t : Fin grid0.N, _)

-- Entries of tile t are entries of the arrays: row p of the tile is row t·2000 + p.
theorem places (c : Dev nD) (t : Fin cfg0.N) (p : Fin 2000) :
    (∀ k, blk V c 0 t (ix2 p k) = xArr V c (ix2 (row t p) k))
    ∧ (∀ k q, blk V c 1 t (ix2 k q) = wtArr V c (ix2 k q))
    ∧ blk V c 2 t (ix2 p (0 : Fin 1)) = dArr V c (ix2 (row t p) (0 : Fin 1)) :=
  ⟨fun k => congrArg (V c main_arg0) (Shape.idx_ext₂ ((win0_0.rect_emb_val t _ 0).trans (congrArg (· * 2000 + p.val) (block_rows t).1))
      (win0_0.rect_emb_val_of_index_zero t 1 rfl _)),
    fun k q => congrArg (V c main_v11) (Shape.idx_ext₂ (win0_1.rect_emb_val_of_index_zero t 0 rfl _)
      (win0_1.rect_emb_val_of_index_zero t 1 rfl _)),
    congrArg (V c main_v12) (Shape.idx_ext₂ ((win0_2.rect_emb_val t _ 0).trans (congrArg (· * 2000 + p.val) (block_rows t).2.1))
      (win0_2.rect_emb_val_of_index_zero t 1 rfl _))⟩

theorem out_emb (t : Fin cfg0.N) (p : Fin 2000) (q : Fin 64) : ((cfg0.win 3).blk t).view.emb (ix2 p q) = ix2 (row t p) q :=
  Shape.idx_ext₂ ((win0_3.rect_emb_val t _ 0).trans (congrArg (· * 2000 + p.val) (block_rows t).2.2))
    (win0_3.rect_emb_val_of_index_zero t 1 rfl _)

theorem written_eq (c : Dev nD) (t : Fin cfg0.N) :
    (dat (F := Ideal) V c).flushed 3 t = ((cfg0.win 3).blk t).view.read (Elt Ideal) (result V c) := by
  show (cfg0.win 3).cut (grid0.coords t) ((dat (F := Ideal) V c).after 3 t) = _
  rw [dat_after_out]
  unfold tile
  rw [View.canon_unit_zero origin]
  funext y
  obtain ⟨p, q, rfl⟩ : ∃ (p : Fin 2000) (q : Fin 64), y = ix2 p q := ⟨y 0, y 1, eq_ix2 y⟩
  obtain ⟨hx, hw, hd⟩ := places V c t p
  show k0_pay1 (F := Ideal) (blk V c 0 t) (blk V c 1 t) (blk V c 2 t) (ix2 p q)
    = result V c (((cfg0.win 3).blk t).view.emb (ix2 p q))
  rw [pay_apply, out_emb, hd]
  simp only [hx, hw]
  rfl

theorem covered (i : S100000x64.Idx) : ∃ t : Fin cfg0.N, (cfg0.win 3).flush t = true ∧ i ∈ ((cfg0.win 3).blk t).view.set :=
  (rows_cover (fun t : Fin cfg0.N => ((cfg0.win 3).blk t).view.set)
    (fun t p q => by rw [← out_emb t p q]; exact View.emb_mem_set _ _) i).imp fun t h => ⟨flush0_3 t, h⟩

theorem out_apply (c : Dev nD) (v : Fin 100000) (j : Fin 64) :
    ((dat (F := Ideal) V c).arrAt 3 cfg0.N : Vec Ideal S100000x64 .f32) (ix2 v j)
      = (∑ k : Fin 128, xArr V c (ix2 v k) * wtArr V c (ix2 k j)) * dArr V c (ix2 v (0 : Fin 1)) :=
  congrFun ((dat (F := Ideal) V c).arrAt_eq_of_cover 3 (result V c) (fun t _ => written_eq V c t) covered) (ix2 v j)

end Cert.KernelIdeal.Proj1

end
-- ==== Proof.KI.NormProj2Value.lean ====
import proofs.«404818_j7687991460117_2_alg».proof.Proof.KI.NormProj2
import proofs.«404818_j7687991460117_2_alg».proof.Proof.KI.Tiles

noncomputable section

open scoped BigOperators

namespace Cert.KernelIdeal.NormProj2

open Cert.KernelIdeal Cert.KernelIdeal.Gen
open Idealize.ShloMosaic Idealize.ShloMosaic.TcCoe Idealize.ShloMosaic.ValueIdx

variable (V : (c : Dev nD) → (b : Ref sig .tc) → Buf (Elt Ideal) ((c : Thread nD τ).loc b))

noncomputable abbrev aggArr (c : Dev nD) : Vec Ideal S100000x64 .f32 := V c main_v23
noncomputable abbrev ownArr (c : Dev nD) : Vec Ideal S100000x64 .f32 := V c main_v13
noncomputable abbrev dArr (c : Dev nD) : Vec Ideal S100000x1 .f32 := V c main_v32
noncomputable abbrev scaleArr (c : Dev nD) : Vec Ideal S1x64 .f32 := V c main_v33
noncomputable abbrev shiftArr (c : Dev nD) : Vec Ideal S1x64 .f32 := V c main_v34
noncomputable abbrev wtArr (c : Dev nD) : Vec Ideal S64x64 .f32 := V c main_v31

-- The layer's activation at node v, channel k.
noncomputable def act (c : Dev nD) (v : Fin 100000) (k : Fin 64) : EReal :=
  max (dArr V c (ix2 v (0 : Fin 1)) * (aggArr V c (ix2 v k) + ownArr V c (ix2 v k)) * scaleArr V c (ix2 (0 : Fin 1) k)
    + shiftArr V c (ix2 (0 : Fin 1) k)) 0

-- Entry (p, q) of a tile: row p of the activations times column q of the weights, scaled by row p's factor.
theorem pay_apply (dinv : Vec Ideal S2000x1 .f32) (agg hsc : Vec Ideal S2000x64 .f32) (scale shift : Vec Ideal S1x64 .f32)
    (w2t : Vec Ideal S64x64 .f32) (p : Fin 2000) (q : Fin 64) :
    k1_pay1 (F := Ideal) dinv agg hsc scale shift w2t (ix2 p q)
      = (∑ k : Fin 64, max (dinv (ix2 p (0 : Fin 1)) * (agg (ix2 p k) + hsc (ix2 p k)) * scale (ix2 (0 : Fin 1) k)
            + shift (ix2 (0 : Fin 1) k)) 0 * w2t (ix2 k q)) * dinv (ix2 p (0 : Fin 1)) := by
  unfold k1_pay1
  simp only [shapeCast_self]
  rw [mulf_apply, matmul_plain_apply dot_S2000x64_S64x64_S2000x64_1_0_0_1_n_n rfl, broadcastTo_a1_ab_apply]
  simp only [truncf_apply, maximumf_apply, addf_apply, mulf_apply, broadcastTo_a1_ab_apply, broadcastTo_1b_ab_apply, broadcast_apply]
  rw [show (FloatOps.ofBits (F := Ideal) FTy.f32 0x00000000#32) = (0 : EReal) from Ideal.ofBits_zero_f32]

theorem index_rows : ∀ t : Fin cfg1.N,
    win1_0.index t (0 : Fin 2) = t.val ∧ win1_1.index t (0 : Fin 2) = t.val
    ∧ win1_2.index t (0 : Fin 2) = t.val ∧ win1_6.index t (0 : Fin 2) = t.val :=
  (by decide +kernel : ∀ t : Fin grid1.N, _)

-- Entries of tile t are entries of the arrays: row p of the tile is row t·2000 + p.
theorem places (c : Dev nD) (t : Fin cfg1.N) (p : Fin 2000) :
    (∀ k, blk V c 0 t (ix2 p k) = aggArr V c (ix2 (row t p) k))
    ∧ (∀ k, blk V c 1 t (ix2 p k) = ownArr V c (ix2 (row t p) k))
    ∧ blk V c 2 t (ix2 p (0 : Fin 1)) = dArr V c (ix2 (row t p) (0 : Fin 1))
    ∧ (∀ k, blk V c 3 t (ix2 (0 : Fin 1) k) = scaleArr V c (ix2 (0 : Fin 1) k))
    ∧ (∀ k, blk V c 4 t (ix2 (0 : Fin 1) k) = shiftArr V c (ix2 (0 : Fin 1) k))
    ∧ ∀ k q, blk V c 5 t (ix2 k q) = wtArr V c (ix2 k q) :=
  ⟨fun k => congrArg (V c main_v23) (Shape.idx_ext₂ ((win1_0.rect_emb_val t _ 0).trans (congrArg (· * 2000 + p.val) (index_rows t).1))
      (win1_0.rect_emb_val_of_index_zero t 1 rfl _)),
    fun k => congrArg (V c main_v13) (Shape.idx_ext₂ ((win1_1.rect_emb_val t _ 0).trans (congrArg (· * 2000 + p.val) (index_rows t).2.1))
      (win1_1.rect_emb_val_of_index_zero t 1 rfl _)),
    congrArg (V c main_v32) (Shape.idx_ext₂ ((win1_2.rect_emb_val t _ 0).trans (congrArg (· * 2000 + p.val) (index_rows t).2.2.1))
      (win1_2.rect_emb_val_of_index_zero t 1 rfl _)),
    fun k => congrArg (V c main_v33) (Shape.idx_ext₂ (win1_3.rect_emb_val_of_index_zero t 0 rfl _)
      (win1_3.rect_emb_val_of_index_zero t 1 rfl _)),
    fun k => congrArg (V c main_v34) (Shape.idx_ext₂ (win1_4.rect_emb_val_of_index_zero t 0 rfl _)
      (win1_4.rect_emb_val_of_index_zero t 1 rfl _)),
    fun k q => congrArg (V c main_v31) (Shape.idx_ext₂ (win1_5.rect_emb_val_of_index_zero t 0 rfl _)
      (win1_5.rect_emb_val_of_index_zero t 1 rfl _))⟩

theorem out_emb (t : Fin cfg1.N) (p : Fin 2000) (q : Fin 64) : ((cfg1.win 6).blk t).view.emb (ix2 p q) = ix2 (row t p) q :=
  Shape.idx_ext₂ ((win1_6.rect_emb_val t _ 0).trans (congrArg (· * 2000 + p.val) (index_rows t).2.2.2))
    (win1_6.rect_emb_val_of_index_zero t 1 rfl _)

noncomputable def outFn (c : Dev nD) : Vec Ideal S100000x64 .f32 := fun i =>
  (∑ k : Fin 64, act V c (i 0) k * wtArr V c (ix2 k (i 1))) * dArr V c (ix2 (i 0) (0 : Fin 1))

theorem flushed_eq (c : Dev nD) (t : Fin cfg1.N) :
    (dat (F := Ideal) V c).flushed 6 t = ((cfg1.win 6).blk t).view.read (Elt Ideal) (outFn V c) := by
  show (cfg1.win 6).cut (grid1.coords t) ((dat (F := Ideal) V c).after 6 t) = _
  rw [dat_after_out]
  unfold tile
  rw [View.canon_unit_zero origin]
  funext y
  obtain ⟨p, q, rfl⟩ : ∃ (p : Fin 2000) (q : Fin 64), y = ix2 p q := ⟨y 0, y 1, eq_ix2 y⟩
  obtain ⟨ha, hh, hd, hs, hb, hw⟩ := places V c t p
  show k1_pay1 (F := Ideal) (blk V c 2 t) (blk V c 0 t) (blk V c 1 t) (blk V c 3 t) (blk V c 4 t) (blk V c 5 t) (ix2 p q)
    = outFn V c (((cfg1.win 6).blk t).view.emb (ix2 p q))
  rw [pay_apply, out_emb, hd]
  simp only [ha, hh, hs, hb, hw]
  rfl

theorem tiles_cover (i : S100000x64.Idx) :
    ∃ t : Fin cfg1.N, (cfg1.win 6).flush t = true ∧ i ∈ ((cfg1.win 6).blk t).view.set :=
  (rows_cover (fun t : Fin cfg1.N => ((cfg1.win 6).blk t).view.set)
    (fun t p q => by rw [← out_emb t p q]; exact View.emb_mem_set _ _) i).imp fun t h => ⟨flush1_6 t, h⟩

theorem out_apply (c : Dev nD) (v : Fin 100000) (j : Fin 64) :
    ((dat (F := Ideal) V c).arrAt 6 cfg1.N : Vec Ideal S100000x64 .f32) (ix2 v j)
      = (∑ k : Fin 64, act V c v k * wtArr V c (ix2 k j)) * dArr V c (ix2 v (0 : Fin 1)) :=
  congrFun ((dat (F := Ideal) V c).arrAt_eq_of_cover 6 (outFn V c) (fun t _ => flushed_eq V c t) tiles_cover) (ix2 v j)

end Cert.KernelIdeal.NormProj2

end
-- ==== Proof.LibRowLookup.lean ====
import Idealize.ShloMosaic.PureOps.Ideal
import Idealize.ShloMosaic.Lib.ValueIdx
import Idealize.ShloMosaic.Lib.ValueIdxRank1

noncomputable section

namespace Idealize.ShloMosaic.RowLookup

open ValueIdx

-- The row a lookup reads for the index word `b` over `N` rows: the signed value clamped into `[0, N - 1]`.
def rowOf (N : Nat) {w : Nat} (b : BitVec w) : Nat := min b.toInt.toNat (N - 1)

theorem rowOf_lt {N : Nat} (hN : 0 < N) {w : Nat} (b : BitVec w) : rowOf N b < N := by
  unfold rowOf; omega

-- Inside the range the clamp does nothing.
theorem rowOf_of_toInt_eq {N : Nat} {w : Nat} (b : BitVec w) (v : Fin N) (h : b.toInt = (v.val : ℤ)) : rowOf N b = v.val := by
  have := v.isLt
  unfold rowOf
  omega

abbrev rowGatherDims (N C E : Nat) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

-- Entry `(e, j)` of a lookup of whole rows is column `j` of the operand's row named by the index word `idx[e, 0]`.
theorem rowGather_apply {α : Type} {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (j : Fin C) :
    Host.gather (rowGatherDims N C E wf) x idx (ix2 e j) = x (ix2 ⟨rowOf N (idx (ix2 e (0 : Fin 1))), rowOf_lt hN _⟩ j) := by
  unfold Host.gather
  exact congrArg x (funext fun
    | ⟨0, _⟩ => Fin.ext (congrArg (fun i => min (idx i).toInt.toNat (N - 1))
        (show _ = ix2 e (0 : Fin 1) from funext fun | ⟨0, _⟩ => rfl | ⟨1, _⟩ => rfl))
    | ⟨1, _⟩ => Fin.ext (Nat.zero_add _))

-- An update lands on `i` exactly when on every axis the signed, unclamped start plus the window coordinate is `i`'s.
theorem resultIdx?_eq_some_iff {s si u : Shape} (d : ScatterDims s si u) {w : Nat} (j : u.Idx) (idx : IVec si w)
    (i : s.Idx) :
    d.resultIdx? j idx = some i ↔ ∀ a, d.start j idx a + (d.window j a : ℤ) = ((i a).val : ℤ) := by
  unfold ScatterDims.resultIdx?
  by_cases h : ∀ a, 0 ≤ d.start j idx a + d.window j a ∧ d.start j idx a + d.window j a < s.size a
  · rw [dif_pos h, Option.some.injEq]
    refine ⟨fun heq a => ?_, fun H => funext fun a => Fin.ext ?_⟩
    · have hv : (d.start j idx a + (d.window j a : ℤ)).toNat = (i a).val := by rw [← heq]
      have := (h a).1
      omega
    · show (d.start j idx a + (d.window j a : ℤ)).toNat = (i a).val
      rw [H a, Int.toNat_natCast]
  · rw [dif_neg h]
    refine ⟨nofun, fun H => absurd (fun a => ?_) h⟩
    rw [H a]
    exact ⟨Int.natCast_nonneg _, by exact_mod_cast (i a).isLt⟩

abbrev flatScatterDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section Flat
variable {N E w : Nat} (wf : ScatterDims.WF ⟨1, ![N]⟩ ⟨2, ![E, 1]⟩ ⟨1, ![E]⟩ [] [0] [0] 1)

-- Update `e` lands on entry `v` exactly when its signed index word is `v`.
theorem flatScatter_lands_iff (idx : IVec ⟨2, ![E, 1]⟩ w) (e : Fin E) (v : Fin N) :
    (flatScatterDims N E wf).resultIdx? (ix1 e) idx = some (ix1 v) ↔ (idx (ix2 e (0 : Fin 1))).toInt = (v.val : ℤ) := by
  have hs : (flatScatterDims N E wf).start (ix1 e) idx 0 = (idx (ix2 e (0 : Fin 1))).toInt :=
    congrArg (fun i => (idx i).toInt) (show _ = ix2 e (0 : Fin 1) from funext fun | ⟨0, _⟩ => rfl | ⟨1, _⟩ => rfl)
  rw [resultIdx?_eq_some_iff, Fin.forall_fin_one, hs]
  show _ + ((0 : ℕ) : ℤ) = (v.val : ℤ) ↔ _
  omega

-- Entry `v` of a flat accumulating scatter: the operand's entry plus the updates whose signed index word is `v`.
theorem flatScatterAdd_apply (x : (⟨1, ![N]⟩ : Shape).Idx → EReal) (idx : IVec ⟨2, ![E, 1]⟩ w)
    (u : (⟨1, ![E]⟩ : Shape).Idx → EReal) (v : Fin N) :
    Ideal.hostScatterAdd (flatScatterDims N E wf) x idx u (ix1 v)
      = x (ix1 v) + ∑ e : Fin E, if (idx (ix2 e (0 : Fin 1))).toInt = (v.val : ℤ) then u (ix1 e) else 0 := by
  show _ + ∑ y ∈ Finset.univ.filter (fun y => (flatScatterDims N E wf).resultIdx? y idx = some (ix1 v)), u y = _
  rw [Finset.sum_filter, ← Equiv.sum_comp (idxEquiv1 (n := E)).symm]
  exact congrArg _ (Finset.sum_congr rfl fun e _ => if_congr (flatScatter_lands_iff wf idx e v) rfl rfl)

end Flat

abbrev rowScatterDims (N C E : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section Row
variable {N C E w : Nat} (wf : ScatterDims.WF ⟨2, ![N, C]⟩ ⟨2, ![E, 1]⟩ ⟨2, ![E, C]⟩ [1] [0] [0] 1)

-- Update entry `(e, c)` lands on `(v, j)` exactly when row `e`'s signed index word is `v` and the columns agree.
theorem rowScatter_lands_iff (idx : IVec ⟨2, ![E, 1]⟩ w) (e : Fin E) (c : Fin C) (v : Fin N) (j : Fin C) :
    (rowScatterDims N C E wf).resultIdx? (ix2 e c) idx = some (ix2 v j)
      ↔ (idx (ix2 e (0 : Fin 1))).toInt = (v.val : ℤ) ∧ c = j := by
  have hs : (rowScatterDims N C E wf).start (ix2 e c) idx 0 = (idx (ix2 e (0 : Fin 1))).toInt :=
    congrArg (fun i => (idx i).toInt) (show _ = ix2 e (0 : Fin 1) from funext fun | ⟨0, _⟩ => rfl | ⟨1, _⟩ => rfl)
  rw [resultIdx?_eq_some_iff, Fin.forall_fin_two, hs, Fin.ext_iff]
  show _ + ((0 : ℕ) : ℤ) = (v.val : ℤ) ∧ (0 : ℤ) + ((c.val : ℕ) : ℤ) = (j.val : ℤ) ↔ _
  omega

-- Entry `(v, j)` of an accumulating scatter of rows: the operand's entry plus column `j` of the update rows whose signed index word is `v`.
theorem rowScatterAdd_apply (x : (⟨2, ![N, C]⟩ : Shape).Idx → EReal) (idx : IVec ⟨2, ![E, 1]⟩ w)
    (u : (⟨2, ![E, C]⟩ : Shape).Idx → EReal) (v : Fin N) (j : Fin C) :
    Ideal.hostScatterAdd (rowScatterDims N C E wf) x idx u (ix2 v j)
      = x (ix2 v j) + ∑ e : Fin E, if (idx (ix2 e (0 : Fin 1))).toInt = (v.val : ℤ) then u (ix2 e j) else 0 := by
  show _ + ∑ y ∈ Finset.univ.filter (fun y => (rowScatterDims N C E wf).resultIdx? y idx = some (ix2 v j)), u y = _
  rw [Finset.sum_filter, sum_idx2]
  refine congrArg _ (Finset.sum_congr rfl fun e _ => ?_)
  by_cases hz : (idx (ix2 e (0 : Fin 1))).toInt = (v.val : ℤ)
  · rw [if_pos hz, Finset.sum_eq_single j (fun c _ hc => if_neg fun h => hc ((rowScatter_lands_iff wf idx e c v j).1 h).2)
      (fun h => absurd (Finset.mem_univ j) h), if_pos ((rowScatter_lands_iff wf idx e j v j).2 ⟨hz, rfl⟩)]
  · rw [if_neg hz]
    exact Finset.sum_eq_zero fun c _ => if_neg fun h => hz ((rowScatter_lands_iff wf idx e c v j).1 h).1

end Row

end Idealize.ShloMosaic.RowLookup

end
-- ==== Proof.Math.Net.lean ====
import Idealize.ShloMosaic.PureOps.Ideal
import proofs.«404818_j7687991460117_2_alg».proof.Proof.LibRowLookup

noncomputable section

open scoped BigOperators

namespace Cert.Proof.Net

open Idealize.ShloMosaic Idealize.ShloMosaic.RowLookup

-- A negative index word has the node count added before the lookup; the lookup then reads it signed and clamped.
noncomputable def wrapWord (b : BitVec 32) : BitVec 32 := Scalar.select (IntOp.cmpi .slt b 0#32) (IntOp.addi b 100000#32) b

noncomputable def nodeOf (b : BitVec 32) : Fin 100000 := ⟨rowOf 100000 (wrapWord b), rowOf_lt (by norm_num) _⟩

noncomputable def eps : EReal := Ideal.ofBits .f32 0x3727C5AC#32

structure Inputs where
  x : Fin 100000 → Fin 128 → EReal
  src : Fin 3200000 → BitVec 32
  dst : Fin 3200000 → BitVec 32
  batch : Fin 100000 → BitVec 32
  W1 : Fin 64 → Fin 128 → EReal
  b1 : Fin 64 → EReal
  g1 : Fin 64 → EReal
  be1 : Fin 64 → EReal
  mu1 : Fin 64 → EReal
  var1 : Fin 64 → EReal
  W2 : Fin 64 → Fin 64 → EReal
  b2 : Fin 64 → EReal
  g2 : Fin 64 → EReal
  be2 : Fin 64 → EReal
  mu2 : Fin 64 → EReal
  var2 : Fin 64 → EReal
  Wl : Fin 64 → EReal
  bl : EReal

structure Inputs.Good (I : Inputs) : Prop where
  x : ∀ v k, ∃ r : ℝ, I.x v k = r
  W1 : ∀ j k, ∃ r : ℝ, I.W1 j k = r
  b1 : ∀ j, ∃ r : ℝ, I.b1 j = r
  g1 : ∀ j, ∃ r : ℝ, I.g1 j = r
  be1 : ∀ j, ∃ r : ℝ, I.be1 j = r
  mu1 : ∀ j, ∃ r : ℝ, I.mu1 j = r
  var1 : ∀ j, ∃ r : ℝ, I.var1 j = r
  W2 : ∀ j k, ∃ r : ℝ, I.W2 j k = r
  b2 : ∀ j, ∃ r : ℝ, I.b2 j = r
  g2 : ∀ j, ∃ r : ℝ, I.g2 j = r
  be2 : ∀ j, ∃ r : ℝ, I.be2 j = r
  mu2 : ∀ j, ∃ r : ℝ, I.mu2 j = r
  var2 : ∀ j, ∃ r : ℝ, I.var2 j = r
  Wl : ∀ j, ∃ r : ℝ, I.Wl j = r
  bl : ∃ r : ℝ, I.bl = r
  var1_nonneg : ∀ j, (0 : EReal) ≤ I.var1 j
  var2_nonneg : ∀ j, (0 : EReal) ≤ I.var2 j

noncomputable def Inputs.ofArrays
    (x0 : (⟨2, ![100000, 128]⟩ : Shape).Idx → EReal) (x1 : (⟨2, ![2, 3200000]⟩ : Shape).Idx → BitVec 32)
    (x2 : (⟨1, ![100000]⟩ : Shape).Idx → BitVec 32) (x3 : (⟨2, ![64, 128]⟩ : Shape).Idx → EReal)
    (x4 x5 x6 x7 x8 : (⟨1, ![64]⟩ : Shape).Idx → EReal) (x9 : (⟨2, ![64, 64]⟩ : Shape).Idx → EReal)
    (x10 x11 x12 x13 x14 : (⟨1, ![64]⟩ : Shape).Idx → EReal) (x15 : (⟨2, ![1, 64]⟩ : Shape).Idx → EReal)
    (x16 : (⟨1, ![1]⟩ : Shape).Idx → EReal) : Inputs where
  x v k := x0 (ValueIdx.ix2 v k)
  src e := x1 (ValueIdx.ix2 (0 : Fin 2) e)
  dst e := x1 (ValueIdx.ix2 (1 : Fin 2) e)
  batch n := x2 (ValueIdx.ix1 n)
  W1 j k := x3 (ValueIdx.ix2 j k)
  b1 j := x4 (ValueIdx.ix1 j)
  g1 j := x5 (ValueIdx.ix1 j)
  be1 j := x6 (ValueIdx.ix1 j)
  mu1 j := x7 (ValueIdx.ix1 j)
  var1 j := x8 (ValueIdx.ix1 j)
  W2 j k := x9 (ValueIdx.ix2 j k)
  b2 j := x10 (ValueIdx.ix1 j)
  g2 j := x11 (ValueIdx.ix1 j)
  be2 j := x12 (ValueIdx.ix1 j)
  mu2 j := x13 (ValueIdx.ix1 j)
  var2 j := x14 (ValueIdx.ix1 j)
  Wl j := x15 (ValueIdx.ix2 (0 : Fin 1) j)
  bl := x16 (ValueIdx.ix1 (0 : Fin 1))

variable (I : Inputs)

-- The sum of a per-edge quantity over the edges whose target is node v.
noncomputable def intoNode (u : Fin 3200000 → EReal) (v : Fin 100000) : EReal :=
  ∑ e : Fin 3200000, if (I.dst e).toInt = (v.val : ℤ) then u e else 0

-- A node's degree with its self-loop, and the reciprocal square root of it.
noncomputable def deg (v : Fin 100000) : EReal := intoNode I (fun _ => 1) v + 1
noncomputable def dinv (v : Fin 100000) : EReal := Ideal.rsqrt (deg I v)

-- The sum of a per-node quantity over the nodes of graph g.
noncomputable def intoGraph (u : Fin 100000 → EReal) (g : ℕ) : EReal :=
  ∑ n : Fin 100000, if (I.batch n).toInt = (g : ℤ) then u n else 0

-- The plain arrangement: each edge's message carries dinv(source)·dinv(target); batch-norm as (h − mean)·(γ·rsqrt(var + ε)) + β.
namespace Spec

noncomputable def conv (hlin : Fin 100000 → Fin 64 → EReal) (b : Fin 64 → EReal) (v : Fin 100000) (j : Fin 64) : EReal :=
  (intoNode I (fun e => hlin (nodeOf (I.src e)) j * (dinv I (nodeOf (I.src e)) * dinv I (nodeOf (I.dst e)))) v
    + hlin v j * (dinv I v * dinv I v)) + b j

noncomputable def normRelu (h : Fin 100000 → Fin 64 → EReal) (g be mu var : Fin 64 → EReal) (v : Fin 100000) (j : Fin 64) : EReal :=
  max ((h v j - mu j) * (g j * Ideal.rsqrt (var j + eps)) + be j) 0

noncomputable def lin1 (v : Fin 100000) (j : Fin 64) : EReal := ∑ k : Fin 128, I.x v k * I.W1 j k
noncomputable def h1 : Fin 100000 → Fin 64 → EReal := normRelu (conv I (lin1 I) I.b1) I.g1 I.be1 I.mu1 I.var1
noncomputable def lin2 (v : Fin 100000) (j : Fin 64) : EReal := ∑ k : Fin 64, h1 I v k * I.W2 j k
noncomputable def h2 : Fin 100000 → Fin 64 → EReal := normRelu (conv I (lin2 I) I.b2) I.g2 I.be2 I.mu2 I.var2

noncomputable def out (g : Fin 200) : EReal :=
  (∑ j : Fin 64, Ideal.div (intoGraph I (fun n => h2 I n j) g.val) (max (intoGraph I (fun _ => 1) g.val) 1) * I.Wl j) + I.bl

end Spec

-- The factored arrangement: features scaled by dinv once per node, the edge sum scaled by dinv(target); batch-norm as one scale and one shift.
namespace KSpec

noncomputable def scaled (hlin : Fin 100000 → Fin 64 → EReal) (v : Fin 100000) (j : Fin 64) : EReal := hlin v j * dinv I v

noncomputable def scale (g var : Fin 64 → EReal) (j : Fin 64) : EReal := g j * Ideal.rsqrt (var j + eps)
noncomputable def shift (b mu be : Fin 64 → EReal) (sc : Fin 64 → EReal) (j : Fin 64) : EReal := (b j - mu j) * sc j + be j

noncomputable def act (hs : Fin 100000 → Fin 64 → EReal) (sc sh : Fin 64 → EReal) (v : Fin 100000) (j : Fin 64) : EReal :=
  max (dinv I v * (intoNode I (fun e => hs (nodeOf (I.src e)) j) v + hs v j) * sc j + sh j) 0

noncomputable def hs1 : Fin 100000 → Fin 64 → EReal := scaled I (Spec.lin1 I)
noncomputable def a1 : Fin 100000 → Fin 64 → EReal :=
  act I (hs1 I) (scale I.g1 I.var1) (shift I.b1 I.mu1 I.be1 (scale I.g1 I.var1))
noncomputable def hs2 : Fin 100000 → Fin 64 → EReal := scaled I (fun v j => ∑ k : Fin 64, a1 I v k * I.W2 j k)
noncomputable def a2 : Fin 100000 → Fin 64 → EReal :=
  act I (hs2 I) (scale I.g2 I.var2) (shift I.b2 I.mu2 I.be2 (scale I.g2 I.var2))

noncomputable def hot (n : Fin 100000) (g : ℕ) : EReal := if I.batch n = BitVec.ofNat 32 g then 1 else 0

noncomputable def sums (g : ℕ) (j : Fin 64) : EReal := ∑ n : Fin 100000, hot I n g * a2 I n j
noncomputable def cnts (g : ℕ) : EReal := ∑ n : Fin 100000, hot I n g * 1

noncomputable def out (g : ℕ) : EReal := (∑ j : Fin 64, Ideal.div (sums I g j) (max (cnts I g) 1) * I.Wl j) + I.bl

end KSpec

end Cert.Proof.Net

end
-- ==== Proof.Math.Words.lean ====
import proofs.«404818_j7687991460117_2_alg».proof.Proof.Math.Net
import Idealize.ShloMosaic.Lib.IdealHost

noncomputable section

namespace Cert.Proof.Net

open Idealize.ShloMosaic

-- The word's exponent field is 110 and its fraction 2606508, so ε = (2²³ + 2606508) · 2⁻⁴⁰.
theorem eps_pos : ∃ r : ℝ, 0 < r ∧ eps = (r : EReal) := by
  refine ⟨(10995116 : ℝ) * (2 : ℝ) ^ (-40 : ℤ), by positivity, ?_⟩
  simp [eps, Ideal.ofBits, Ideal.ieee, -EReal.coe_mul]

theorem one_f32 : Ideal.ofBits .f32 0x3F800000#32 = (1 : EReal) := Ideal.ofBits_one_f32

theorem one_bf16 : Ideal.ofBits .bf16 0x3F80#16 = (1 : EReal) := Ideal.ofBits_one_bf16

end Cert.Proof.Net

end
-- ==== Proof.KI.PoolPayloads.lean ====
import proofs.«404818_j7687991460117_2_alg».proof.Proof.KI.NormPool
import proofs.«404818_j7687991460117_2_alg».proof.Proof.Math.Words
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.NormPool

open Cert.KernelIdeal Cert.KernelIdeal.Gen
open Idealize.ShloMosaic Idealize.ShloMosaic.ValueIdx

variable (d : Vec Ideal S2000x1 .f32) (agg own : Vec Ideal S2000x64 .f32) (sc sh : Vec Ideal S1x64 .f32)
  (ids : Vec Ideal S2000x1 .i32) (r : Fin 2000) (g : Fin 256) (j : Fin 64)

-- Row r's one-hot weight for graph slot g.
def hotBit : EReal := if ids (ix2 r (0 : Fin 1)) = BitVec.ofNat 32 g.val then 1 else 0

-- The tile's rectified, normalised feature at row r, channel j.
def tileAct : EReal :=
  max (d (ix2 r (0 : Fin 1)) * (agg (ix2 r j) + own (ix2 r j)) * sc (ix2 (0 : Fin 1) j) + sh (ix2 (0 : Fin 1) j)) 0

-- An equality test of two words, widened and converted, is one where they agree and zero where not.
theorem eqWord_toReal (x y : BitVec 32) :
    (((((IntOp.cmpi .eq x y).setWidth 32).toInt : ℤ) : ℝ) : EReal) = if x = y then (1 : EReal) else 0 := by
  by_cases h : x = y
  · simp [IntOp.cmpi, h]
  · simp [IntOp.cmpi, beq_eq_false_iff_ne.mpr h, h]

-- A column spread along a second axis reads the column.
theorem broadcastTo_a1_ab_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h _ _ fun ax => ?_
  have := p.isLt
  match ax with
  | ⟨0, _⟩ => show p.val = if a = 1 then 0 else p.val; split <;> omega
  | ⟨1, _⟩ => rfl

theorem pay6_apply : k2_pay6 (F := Ideal) ids (ix2 r g) = hotBit ids r g := by
  unfold k2_pay6 hotBit
  rw [shapeCast_self]
  refine (eqWord_toReal _ _).trans ?_
  rw [broadcastTo_a1_ab_apply, iota_single_apply]

-- A product of two matrices onto zeros, contracted along one axis of extent n, is the sum of products along it.
theorem dot_apply {sl sr so : Shape} (D : DotDims sl sr so) (n : ℕ) (hr : D.contr.rank = 1)
    (hs : D.contr.size ⟨0, by omega⟩ = n) (A : FVec Ideal sl .bf16) (B : FVec Ideal sr .bf16) (i : so.Idx)
    (L : Fin n → sl.Idx) (R : Fin n → sr.Idx) (hL : ∀ k, D.lhsIdx i ((contrEquiv1 D n hr hs).symm k) = L k)
    (hR : ∀ k, D.rhsIdx i ((contrEquiv1 D n hr hs).symm k) = R k) :
    matmul D none A B (constant so .f32 0x00000000#32) i = ∑ k, A (L k) * B (R k) := by
  simp only [matmul]
  rw [Ideal.matmul_constant_zero_apply, ← Equiv.sum_comp (contrEquiv1 D n hr hs).symm]
  exact Finset.sum_congr rfl fun k _ => by rw [hL, hR]

theorem pay8_apply (s : Vec Ideal S256x64 .f32) : k2_pay8 (F := Ideal) d agg own sc sh ids s (ix2 g j)
    = s (ix2 g j) + ∑ r : Fin 2000, hotBit ids r g * tileAct d agg own sc sh r j := by
  unfold k2_pay8 tileAct
  simp only [shapeCast_self]
  refine congrArg (s (ix2 g j) + ·) ((dot_apply _ 2000 rfl rfl _ _ _ (ix2 · g) (ix2 · j)
    (fun _ => Shape.idx_ext₂ rfl rfl) fun _ => Shape.idx_ext₂ rfl rfl).trans
    (Finset.sum_congr rfl fun r _ => congrArg₂ (· * ·) (pay6_apply ids r g) ?_))
  simp only [truncf_apply, maximumf_apply, addf_apply, mulf_apply, broadcastTo_a1_ab_apply, broadcastTo_1b_ab_apply]
  exact congrArg (max _) Ideal.ofBits_zero_f32

theorem pay2_apply (s : Vec Ideal S256x1 .f32) : k2_pay2 (F := Ideal) (k2_pay6 ids) k2_pay7 s (ix2 g (0 : Fin 1))
    = s (ix2 g (0 : Fin 1)) + ∑ r : Fin 2000, hotBit ids r g * 1 := by
  unfold k2_pay2
  rw [shapeCast_self]
  exact congrArg (s (ix2 g (0 : Fin 1)) + ·) ((dot_apply _ 2000 rfl rfl _ _ _ (ix2 · g) (ix2 · 0)
    (fun _ => Shape.idx_ext₂ rfl rfl) fun _ => Shape.idx_ext₂ rfl rfl).trans
    (Finset.sum_congr rfl fun r _ => congrArg₂ (· * ·) (pay6_apply ids r g) Cert.Proof.Net.one_bf16))

theorem pay1_apply (v : Vec Ideal S256x64 .f32) (i : S256x64.Idx) : k2_pay1 (F := Ideal) v i = v i :=
  congrFun (shapeCast_self v _) i

theorem pay4_apply (i : S256x64.Idx) : k2_pay4 (F := Ideal) i = 0 := by
  unfold k2_pay4
  rw [shapeCast_self]
  exact Ideal.ofBits_zero_f32

theorem pay5_apply (i : S256x1.Idx) : k2_pay5 (F := Ideal) i = 0 := by
  unfold k2_pay5
  rw [shapeCast_self]
  exact Ideal.ofBits_zero_f32

theorem pay3_apply (S : Vec Ideal S256x64 .f32) (C : Vec Ideal S256x1 .f32) (head : Vec Ideal S64x1 .f32)
    (bias : Vec Ideal S1x1 .f32) : k2_pay3 (F := Ideal) S C head bias (ix2 g (0 : Fin 1))
    = (∑ j : Fin 64, Ideal.div (S (ix2 g j)) (max (C (ix2 g (0 : Fin 1))) 1) * head (ix2 j (0 : Fin 1)))
      + bias (ix2 (0 : Fin 1) (0 : Fin 1)) := by
  unfold k2_pay3
  rw [shapeCast_self, shapeCast_self]
  exact congrArg₂ (· + ·) ((dot_apply _ 64 rfl rfl _ _ _ (ix2 g ·) (ix2 · 0)
    (fun _ => Shape.idx_ext₂ rfl rfl) fun _ => Shape.idx_ext₂ rfl rfl).trans
    (Finset.sum_congr rfl fun j _ => congrArg (fun x => Ideal.div _ x * _)
      ((broadcastTo_a1_ab_apply _ _ g j).trans (congrArg (max _) Cert.Proof.Net.one_f32))))
    (broadcastTo_1b_ab_apply bias _ g 0)

end Cert.KernelIdeal.NormPool

end
-- ==== Proof.KI.NormPoolValue.lean ====
import proofs.«404818_j7687991460117_2_alg».proof.Proof.KI.PoolPayloads

noncomputable section

namespace Cert.KernelIdeal.NormPool

open Cert.KernelIdeal Cert.KernelIdeal.Gen
open Idealize.ShloMosaic Idealize.ShloMosaic.TcCoe Idealize.ShloMosaic.ValueIdx

variable (V : (c : Dev nD) → (b : Ref sig .tc) → Buf (Elt Ideal) ((c : Thread nD τ).loc b))

noncomputable abbrev aggArr (c : Dev nD) : Vec Ideal S100000x64 .f32 := V c main_v45
noncomputable abbrev ownArr (c : Dev nD) : Vec Ideal S100000x64 .f32 := V c main_v35
noncomputable abbrev dArr (c : Dev nD) : Vec Ideal S100000x1 .f32 := V c main_v53
noncomputable abbrev scaleArr (c : Dev nD) : Vec Ideal S1x64 .f32 := V c main_v54
noncomputable abbrev shiftArr (c : Dev nD) : Vec Ideal S1x64 .f32 := V c main_v55
noncomputable abbrev idArr (c : Dev nD) : Vec Ideal S100000x1 .i32 := V c main_v56
noncomputable abbrev headArr (c : Dev nD) : Vec Ideal S64x1 .f32 := V c main_v57
noncomputable abbrev biasArr (c : Dev nD) : Vec Ideal S1x1 .f32 := V c main_v58

-- The layer's rectified, normalised feature at node n, channel j.
def act (c : Dev nD) (n : Fin 100000) (j : Fin 64) : EReal :=
  max (dArr V c (ix2 n (0 : Fin 1)) * (aggArr V c (ix2 n j) + ownArr V c (ix2 n j)) * scaleArr V c (ix2 (0 : Fin 1) j)
    + shiftArr V c (ix2 (0 : Fin 1) j)) 0

-- Node n's one-hot weight for graph slot g.
def hot (c : Dev nD) (n : Fin 100000) (g : Fin 256) : EReal :=
  if idArr V c (ix2 n (0 : Fin 1)) = BitVec.ofNat 32 g.val then 1 else 0

def sums (c : Dev nD) (g : Fin 256) (j : Fin 64) : EReal := ∑ n : Fin 100000, hot V c n g * act V c n j
def cnts (c : Dev nD) (g : Fin 256) : EReal := ∑ n : Fin 100000, hot V c n g * 1

theorem zeros2 : (![0, 0] : Fin 2 → Nat) = fun _ => 0 := funext fun a => by fin_cases a <;> rfl

theorem idx_facts : ∀ (t : Fin cfg2.N) (w : Fin cfg2.W) (a : Fin (cfg2.win w).shape.rank),
    (cfg2.win w).index t a * (cfg2.win w).size a = if w.val ∈ [0, 1, 2, 5] ∧ a.val = 0 then 2000 * t.val else 0 :=
  (by decide +kernel : ∀ t : Fin grid2.N, _)

-- Names a tile's entry as an entry of the whole array: row r of tile t is row 2000·t + r.
theorem emb_eq (w : Fin cfg2.W) (t : Fin cfg2.N) (y : ((cfg2.win w).xblock (cfg2.grid.coords t)).Idx)
    (i : (cfg2.win w).shape.Idx)
    (h : ∀ a, (i a : ℕ) = y a + if w.val ∈ [0, 1, 2, 5] ∧ a.val = 0 then 2000 * t.val else 0) :
    ((cfg2.win w).rect t).emb y = i :=
  funext fun a => Fin.ext (((cfg2.win w).rect_emb_val t y a).trans
    ((congrArg (· + _) (idx_facts t w a)).trans ((Nat.add_comm _ _).trans (h a).symm)))

-- Row r of tile t is node 2000·t + r.
noncomputable def node (t : Fin cfg2.N) (r : Fin 2000) : Fin 100000 :=
  ⟨r.val + 2000 * t.val, by have := r.isLt; have := Nat.lt_of_lt_of_eq t.isLt N_2; omega⟩

-- Tile t's part of a sum over all nodes; nothing past the last tile.
def tile (f : Fin 100000 → EReal) (t : ℕ) : EReal := if h : t < cfg2.N then ∑ r : Fin 2000, f (node ⟨t, h⟩ r) else 0

-- The fifty tiles cover the nodes: (tile, row) ↦ node is a bijection.
theorem sum_tiles (f : Fin 100000 → EReal) : ∑ t ∈ Finset.range 50, tile f t = ∑ n, f n := by
  rw [Finset.sum_range, ← Equiv.sum_comp (finProdFinEquiv (m := 50) (n := 2000)) f, Fintype.sum_prod_type]
  exact Finset.sum_congr rfl fun t _ => dif_pos (Nat.lt_of_lt_of_eq t.isLt N_2.symm)

variable (c : Dev nD) (t : Fin cfg2.N) (r : Fin 2000) (g : Fin 256) (j : Fin 64)

theorem hotBit_tile : hotBit (blk V c 5 t) r g = hot V c (node t r) g :=
  congrArg (fun x => if x = _ then (1 : EReal) else 0)
    (congrArg (V c main_v56) (emb_eq 5 t _ (ix2 _ _) fun | ⟨0, _⟩ => rfl | ⟨1, _⟩ => rfl))

theorem tileAct_tile :
    tileAct (blk V c 2 t) (blk V c 0 t) (blk V c 1 t) (blk V c 3 t) (blk V c 4 t) r j = act V c (node t r) j := by
  refine congrArg₂ max (congrArg₂ (· + ·) (congrArg₂ (· * ·) (congrArg₂ (· * ·) ?_ (congrArg₂ (· + ·) ?_ ?_)) ?_) ?_) rfl
  · exact congrArg (V c main_v53) (emb_eq 2 t _ (ix2 _ _) fun | ⟨0, _⟩ => rfl | ⟨1, _⟩ => rfl)
  · exact congrArg (V c main_v45) (emb_eq 0 t _ (ix2 _ _) fun | ⟨0, _⟩ => rfl | ⟨1, _⟩ => rfl)
  · exact congrArg (V c main_v35) (emb_eq 1 t _ (ix2 _ _) fun | ⟨0, _⟩ => rfl | ⟨1, _⟩ => rfl)
  · exact congrArg (V c main_v54) (emb_eq 3 t _ _ fun _ => rfl)
  · exact congrArg (V c main_v55) (emb_eq 4 t _ _ fun _ => rfl)

theorem sumsStep_apply (s : Vec Ideal S256x64 .f32) :
    sumsStep V c t s (ix2 g j) = s (ix2 g j) + tile (fun n => hot V c n g * act V c n j) t.val := by
  unfold sumsStep tile
  rw [View.canon_unit_zero zeros2, pay1_apply, pay8_apply, dif_pos t.isLt]
  exact congrArg _ (Finset.sum_congr rfl fun r _ => congrArg₂ (· * ·) (hotBit_tile V c t r g) (tileAct_tile V c t r j))

theorem cntsStep_apply (s : Vec Ideal S256x1 .f32) :
    cntsStep V c t s (ix2 g (0 : Fin 1)) = s (ix2 g (0 : Fin 1)) + tile (fun n => hot V c n g * 1) t.val := by
  unfold cntsStep tile
  rw [View.canon_unit_zero zeros2, pay2_apply, dif_pos t.isLt]
  exact congrArg _ (Finset.sum_congr rfl fun r _ => congrArg (· * 1) (hotBit_tile V c t r g))

-- An entry that starts from zero and gains each tile's part in turn ends as the sum over all nodes.
theorem acc_last {s : Shape} (At : ℕ → Vec Ideal s .f32) (step : Fin cfg2.N → Vec Ideal s .f32 → Vec Ideal s .f32)
    (z : Vec Ideal s .f32) (i : s.Idx) (f : Fin 100000 → EReal) (h0 : At 0 = step first z)
    (hS : ∀ n, At (n + 1) = if h : n + 1 < cfg2.N then step ⟨n + 1, h⟩ (At n) else At n) (hz : z i = (0 : EReal))
    (hstep : ∀ t v, step t v i = (v i + tile f t.val : EReal)) : At 49 i = ∑ n, f n := by
  have key : ∀ n, n < 50 → At n i = ∑ t ∈ Finset.range (n + 1), tile f t := fun n => by
    induction n with
    | zero => intro _; rw [h0, hstep, hz, zero_add, Finset.sum_range_one]
    | succ n ih =>
      intro h
      rw [hS, dif_pos (Nat.lt_of_lt_of_eq h N_2.symm), hstep, ih (Nat.lt_of_succ_lt h), Finset.sum_range_succ _ (n + 1)]
  rw [key 49 (by omega), sum_tiles]

theorem sumsAt_last : sumsAt V c 49 (ix2 g j) = sums V c g j :=
  acc_last (sumsAt V c) (sumsStep V c) _ _ _ rfl (fun _ => rfl)
    (by rw [View.canon_unit_zero zeros2, pay4_apply]) fun t v => sumsStep_apply V c t g j v

theorem cntsAt_last : cntsAt V c 49 (ix2 g (0 : Fin 1)) = cnts V c g :=
  acc_last (cntsAt V c) (cntsStep V c) _ _ _ rfl (fun _ => rfl)
    (by rw [View.canon_unit_zero zeros2, pay5_apply]) fun t v => cntsStep_apply V c t g v

theorem out_arr : ((dat (F := Ideal) V c).arrAt 8 cfg2.N : Vec Ideal S256x1 .f32) = outTile V c :=
  (dat (F := Ideal) V c).arrAt_eq_of_cover 8 (outTile V c) (fun t _ => by
    show (cfg2.win 8).cut (grid2.coords t) ((dat V c).after 8 t) = _
    rw [dat_after_out]
    exact funext fun y => (congrArg (outTile V c) (emb_eq 8 t y ((cfg2.win 8).xinj _ y) fun _ => rfl)).symm) fun i =>
    ⟨last, (flush2_8 last).mpr rfl, (congrArg (· ∈ _) (emb_eq 8 last i i fun _ => rfl)).mp (View.emb_mem_set _ i)⟩

theorem out_apply : ((dat (F := Ideal) V c).arrAt 8 cfg2.N : Vec Ideal S256x1 .f32) (ix2 g (0 : Fin 1))
    = (∑ j : Fin 64, Ideal.div (sums V c g j) (max (cnts V c g) 1) * headArr V c (ix2 j (0 : Fin 1)))
      + biasArr V c (ix2 (0 : Fin 1) (0 : Fin 1)) := by
  rw [out_arr]
  unfold outTile
  rw [View.canon_unit_zero zeros2, pay3_apply, cntsAt_last]
  exact congrArg₂ (· + ·) (Finset.sum_congr rfl fun j _ => by
    rw [sumsAt_last]; exact congrArg _ (congrArg (V c main_v57) (emb_eq 6 last _ _ fun _ => rfl)))
    (congrArg (V c main_v58) (emb_eq 7 last _ _ fun _ => rfl))

end Cert.KernelIdeal.NormPool

end
-- ==== Proof.KI.Reading.lean ====
import proofs.«404818_j7687991460117_2_alg».proof.Proof.KI.Launch
import proofs.«404818_j7687991460117_2_alg».proof.Proof.KI.Proj1Value
import proofs.«404818_j7687991460117_2_alg».proof.Proof.KI.NormProj2Value
import proofs.«404818_j7687991460117_2_alg».proof.Proof.KI.NormPoolValue
import proofs.«404818_j7687991460117_2_alg».proof.Proof.Math.Words
import proofs.«404818_j7687991460117_2_alg».proof.Proof.LibRowLookup
import Idealize.ShloMosaic.Lib.StableHlo.Run

noncomputable section

namespace Cert.KernelIdeal.Reading
open Cert.KernelIdeal Cert.KernelIdeal.Gen
open Idealize.ShloMosaic Idealize.ShloMosaic.TcCoe Idealize.ShloMosaic.ValueIdx Idealize.ShloMosaic.RowLookup
open Idealize.SL.Sem Idealize.ShloMosaic.StableHlo
open Cert.Proof

variable (m : (ℓ : Loc nD τ sig) → Buf (Elt Ideal) ℓ) (c : Dev nD)

-- What r holds on core c: at launch, and at three later points of the run.
noncomputable abbrev arg (r : Ref sig .tc) := m ((c.tc : Thread nD τ).loc r)
noncomputable abbrev R1 (r : Ref sig .tc) := Run.at1 m c (Proc.devRef .tc r)
noncomputable abbrev R2 (r : Ref sig .tc) := Run.at2 m c (Proc.devRef .tc r)
noncomputable abbrev R4 (r : Ref sig .tc) := Run.at4 m c (Proc.devRef .tc r)

noncomputable def inputs : Net.Inputs :=
  Net.Inputs.ofArrays (arg m c main_arg0) (arg m c main_arg1) (arg m c main_arg2) (arg m c main_arg3) (arg m c main_arg4) (arg m c main_arg5)
    (arg m c main_arg6) (arg m c main_arg7) (arg m c main_arg8) (arg m c main_arg9) (arg m c main_arg10) (arg m c main_arg11)
    (arg m c main_arg12) (arg m c main_arg13) (arg m c main_arg14) (arg m c main_arg15) (arg m c main_arg16)

theorem spread_const_apply {t : Shape} (dims : Fin S_.rank → Fin t.rank) (h : S_.BroadcastsInDim t dims) (b : BitVec 32) (j : t.Idx) :
    broadcastInDim t dims h (constant (F := Ideal) S_ .f32 b) j = Ideal.ofBits .f32 b := rfl

noncomputable def srcWords (x1 : IVec S2x3200000 32) : IVec S3200000 32 :=
  shapeCast S3200000 (extractStridedSlice S1x3200000 ![0, 0] x1 slices_S2x3200000_S1x3200000_0_0) shapeCasts_S1x3200000_S3200000

noncomputable def dstWords (x1 : IVec S2x3200000 32) : IVec S3200000 32 :=
  shapeCast S3200000 (extractStridedSlice S1x3200000 ![1, 0] x1 slices_S2x3200000_S1x3200000_1_0) shapeCasts_S1x3200000_S3200000

theorem srcWords_apply (x1 : IVec S2x3200000 32) (e : Fin 3200000) : srcWords x1 (ix1 e) = x1 (ix2 (0 : Fin 2) e) := by
  unfold srcWords
  rw [shapeCast_1a_a_apply]
  exact slice2_axis0_apply 0 x1 _ (0 : Fin 1) e (0 : Fin 2) rfl

theorem dstWords_apply (x1 : IVec S2x3200000 32) (e : Fin 3200000) : dstWords x1 (ix1 e) = x1 (ix2 (1 : Fin 2) e) := by
  unfold dstWords
  rw [shapeCast_1a_a_apply]
  exact slice2_axis0_apply 1 x1 _ (0 : Fin 1) e (1 : Fin 2) rfl

noncomputable def wordCol (w : IVec S3200000 32) : IVec S3200000x1 32 :=
  broadcastInDim S3200000x1 ![0] bcast_S3200000_S3200000x1_0 w

theorem wordCol_apply (w : IVec S3200000 32) (e : Fin 3200000) : wordCol w (ix2 e (0 : Fin 1)) = w (ix1 e) := by
  unfold wordCol
  exact broadcastInDim_apply _ bcast_S3200000_S3200000x1_0 w (ix2 e (0 : Fin 1)) (ix1 e) (fun a => match a with
    | ⟨0, _⟩ => by show e.val = if (3200000 : Nat) = 1 then 0 else e.val; rw [if_neg (by decide)])

noncomputable def wrapWords (s : IVec S3200000 32) : IVec S3200000 32 :=
  select (cmpi .slt s (broadcastInDim S3200000 ![] bcast_S_S3200000 (constantI S_ 32 0#32)))
    (addi s (broadcastInDim S3200000 ![] bcast_S_S3200000 (constantI S_ 32 100000#32))) s

theorem wrapWords_apply (s : IVec S3200000 32) (e : Fin 3200000) : wrapWords s (ix1 e) = Net.wrapWord (s (ix1 e)) := rfl

theorem degScatter_eq : scatter_S100000_S3200000x1_S3200000_n_0_0_1
    = flatScatterDims 100000 3200000 scatter_S100000_S3200000x1_S3200000_n_0_0_1_wf := rfl

theorem rowGather_eq : gather_S100000x64_S3200000x1_S3200000x64_1_0_n_n_0_1_164
    = rowGatherDims 100000 64 3200000 gather_S100000x64_S3200000x1_S3200000x64_1_0_n_n_0_1_164_wf := rfl

theorem rowScatter_eq : scatter_S100000x64_S3200000x1_S3200000x64_1_0_0_1
    = rowScatterDims 100000 64 3200000 scatter_S100000x64_S3200000x1_S3200000x64_1_0_0_1_wf := rfl

theorem scatterAdd_ideal {s si u : Shape} {w : Nat} (d : ScatterDims s si u) (x : FVec Ideal s .f32) (idx : IVec si w)
    (upd : FVec Ideal u .f32) : Host.scatterAdd d x idx upd = Ideal.hostScatterAdd d x idx upd := rfl

noncomputable def degArr (d : IVec S3200000 32) : FVec Ideal S100000 .f32 :=
  addf (Host.scatterAdd scatter_S100000_S3200000x1_S3200000_n_0_0_1
      (broadcastInDim S100000 ![] bcast_S_S100000 (constant (F := Ideal) S_ .f32 0x00000000#32))
      (wordCol d)
      (broadcastInDim S3200000 ![] bcast_S_S3200000 (constant (F := Ideal) S_ .f32 0x3F800000#32)))
    (broadcastInDim S100000 ![] bcast_S_S100000 (constant (F := Ideal) S_ .f32 0x3F800000#32))

noncomputable def dinvArr (d : IVec S3200000 32) : FVec Ideal S100000 .f32 := Host.rsqrt (degArr d)

theorem hostRsqrt_apply {s : Shape} (x : FVec Ideal s .f32) (i : s.Idx) : Host.rsqrt x i = Ideal.rsqrt (x i) := rfl

noncomputable def edgeSum (s d : IVec S3200000 32) (h : FVec Ideal S100000x64 .f32) : FVec Ideal S100000x64 .f32 :=
  Host.scatterAdd scatter_S100000x64_S3200000x1_S3200000x64_1_0_0_1
    (broadcastInDim S100000x64 ![] bcast_S_S100000x64 (constant (F := Ideal) S_ .f32 0x00000000#32))
    (wordCol d)
    (Host.gather gather_S100000x64_S3200000x1_S3200000x64_1_0_n_n_0_1_164 h (wordCol (wrapWords s)))

theorem gatherRows_apply (s : IVec S3200000 32) (h : FVec Ideal S100000x64 .f32) (e : Fin 3200000) (j : Fin 64) :
    Host.gather gather_S100000x64_S3200000x1_S3200000x64_1_0_n_n_0_1_164 h (wordCol (wrapWords s)) (ix2 e j)
      = h (ix2 (Net.nodeOf (s (ix1 e))) j) := by
  rw [rowGather_eq, rowGather_apply (by norm_num)]
  refine congrArg h (congrArg (fun r : Fin 100000 => ix2 r j) (Fin.ext ?_))
  show rowOf 100000 (wordCol (wrapWords s) (ix2 e (0 : Fin 1))) = rowOf 100000 (Net.wrapWord (s (ix1 e)))
  rw [wordCol_apply, wrapWords_apply]

noncomputable def bnScale (g var : FVec Ideal S64 .f32) : FVec Ideal S64 .f32 :=
  mulf g (Host.rsqrt (addf var (broadcastInDim S64 ![] bcast_S_S64 (constant (F := Ideal) S_ .f32 0x3727C5AC#32))))

noncomputable def bnShift (b mu be sc : FVec Ideal S64 .f32) : FVec Ideal S64 .f32 := addf (mulf (subf b mu) sc) be

theorem bnScale_apply (g var : FVec Ideal S64 .f32) (k : Fin 64) :
    bnScale g var (ix1 k) = g (ix1 k) * Ideal.rsqrt (var (ix1 k) + Net.eps) := rfl

theorem bnShift_apply (b mu be sc : FVec Ideal S64 .f32) (k : Fin 64) :
    bnShift b mu be sc (ix1 k) = (b (ix1 k) - mu (ix1 k)) * sc (ix1 k) + be (ix1 k) := rfl

noncomputable def asRow (x : FVec Ideal S64 .f32) : FVec Ideal S1x64 .f32 := shapeCast S1x64 x shapeCasts_S64_S1x64

noncomputable def asCol {α : Type} (x : S100000.Idx → α) : S100000x1.Idx → α := shapeCast S100000x1 x shapeCasts_S100000_S100000x1

theorem asRow_apply (x : FVec Ideal S64 .f32) (k : Fin 64) : asRow x (ix2 (0 : Fin 1) k) = x (ix1 k) :=
  shapeCast_a_1a_apply x shapeCasts_S64_S1x64 0 k

theorem asCol_apply {α : Type} (x : S100000.Idx → α) (v : Fin 100000) : asCol x (ix2 v (0 : Fin 1)) = x (ix1 v) :=
  shapeCast_apply x shapeCasts_S100000_S100000x1 _ _ (by
    rw [Shape.rowMajor_val_two, Shape.rowMajor_val_one]
    show v.val = v.val * 1 + 0
    omega)

theorem at1_keep (r : Ref sig .tc) (h : r ∉ hostOps0_W := by decide) : R1 m c r = arg m c r :=
  StableHlo.after_of_writes_sub hostOps0 _ hostOps0_writes h

theorem at2_keep (r : Ref sig .tc) (h : ∀ w, Pipeline.arrRef spec0 w ≠ r := by decide) : R2 m c r = R1 m c r := by
  unfold R2 Run.at2
  exact Pipeline.withArrays_of_ne spec0 c _ _ r h

theorem at3_keep (r : Ref sig .tc) (h : r ∉ hostOps1_W := by decide) :
    Run.at3 m c (Proc.devRef .tc r) = R2 m c r :=
  StableHlo.after_of_writes_sub hostOps1 _ hostOps1_writes h

theorem at4_keep (r : Ref sig .tc) (h1 : ∀ w, Pipeline.arrRef spec0 w ≠ r := by decide) (h2 : r ∉ hostOps1_W := by decide)
    (h3 : ∀ w, Pipeline.arrRef spec1 w ≠ r := by decide) : R4 m c r = R1 m c r := by
  rw [← at2_keep m c r h1, ← at3_keep m c r h2]
  unfold R4 Run.at4
  exact Pipeline.withArrays_of_ne spec1 c _ _ r h3

theorem at5_keep (r : Ref sig .tc) (h : r ∉ hostOps2_W := by decide) :
    Run.at5 m c (Proc.devRef .tc r) = R4 m c r :=
  StableHlo.after_of_writes_sub hostOps2 _ hostOps2_writes h

theorem at2_arg (r : Ref sig .tc) (h0 : r ∉ hostOps0_W := by decide) (h1 : ∀ w, Pipeline.arrRef spec0 w ≠ r := by decide) :
    R2 m c r = arg m c r := (at2_keep m c r h1).trans (at1_keep m c r h0)

theorem at4_arg (r : Ref sig .tc) (h0 : r ∉ hostOps0_W := by decide) (h1 : ∀ w, Pipeline.arrRef spec0 w ≠ r := by decide)
    (h2 : r ∉ hostOps1_W := by decide) (h3 : ∀ w, Pipeline.arrRef spec1 w ≠ r := by decide) : R4 m c r = arg m c r :=
  (at4_keep m c r h1 h2 h3).trans (at1_keep m c r h0)

theorem at1_v1 : (R1 m c main_v1 : IVec S3200000 32) = srcWords (arg m c main_arg1) := by
  show StableHlo.after hostOps0 _ _ = _
  after_results <;> rfl

theorem at1_v3 : (R1 m c main_v3 : IVec S3200000 32) = dstWords (arg m c main_arg1) := by
  show StableHlo.after hostOps0 _ _ = _
  after_results <;> rfl

theorem at1_v10 : (R1 m c main_v10 : FVec Ideal S100000 .f32) = dinvArr (dstWords (arg m c main_arg1)) := by
  show StableHlo.after hostOps0 _ _ = _
  after_results <;> rfl

theorem at7_v60 : (Run.at7 m c (Proc.devRef .tc main_v60) : FVec Ideal S200x1 .f32)
    = extractStridedSlice S200x1 ![0, 0] (Run.at6 m c (Proc.devRef .tc main_v59) : FVec Ideal S256x1 .f32) slices_S256x1_S200x1_0_0 := by
  show StableHlo.after hostOps3 _ _ = _
  after_results

theorem at2_v13 : (R2 m c main_v13 : FVec Ideal S100000x64 .f32) = (Proj1.dat (Run.in1 m) c).arrAt 3 cfg0.N := by
  unfold R2 Run.at2
  exact Pipeline.withArrays_arr spec0 winFacts0.arr_inj c _ _ 3

theorem at4_v35 : (R4 m c main_v35 : FVec Ideal S100000x64 .f32) = (NormProj2.dat (Run.in3 m) c).arrAt 6 cfg1.N := by
  unfold R4 Run.at4
  exact Pipeline.withArrays_arr spec1 winFacts1.arr_inj c _ _ 6

theorem at6_v59 : (Run.at6 m c (Proc.devRef .tc main_v59) : FVec Ideal S256x1 .f32) = (NormPool.dat (Run.in5 m) c).arrAt 8 cfg2.N := by
  unfold Run.at6
  exact Pipeline.withArrays_arr spec2 winFacts2.arr_inj c _ _ 8

theorem dinv_read (v : Fin 100000) :
    dinvArr (dstWords (arg m c main_arg1)) (ix1 v) = Net.dinv (inputs m c) v := by
  unfold dinvArr degArr Net.dinv Net.deg Net.intoNode
  rw [hostRsqrt_apply, addf_apply, spread_const_apply, Net.one_f32, scatterAdd_ideal, degScatter_eq, flatScatterAdd_apply,
    spread_const_apply, Ideal.ofBits_zero_f32, zero_add]
  refine congrArg (fun t : EReal => Ideal.rsqrt (t + 1)) (Finset.sum_congr rfl fun e _ => ?_)
  rw [wordCol_apply, spread_const_apply, Net.one_f32, dstWords_apply]
  rfl

-- Transport along hH: the edge sum only sees h through its entries.
theorem edge_read (h : FVec Ideal S100000x64 .f32) (H : Fin 100000 → Fin 64 → EReal) (hH : ∀ v j, h (ix2 v j) = H v j)
    (v : Fin 100000) (j : Fin 64) :
    edgeSum (srcWords (arg m c main_arg1)) (dstWords (arg m c main_arg1)) h (ix2 v j)
      = Net.intoNode (inputs m c) (fun e => H (Net.nodeOf ((inputs m c).src e)) j) v := by
  unfold edgeSum Net.intoNode
  rw [scatterAdd_ideal, rowScatter_eq, rowScatterAdd_apply, spread_const_apply, Ideal.ofBits_zero_f32, zero_add]
  refine Finset.sum_congr rfl fun e _ => ?_
  rw [wordCol_apply, gatherRows_apply, dstWords_apply, srcWords_apply, hH]
  rfl

theorem in1_x : Proj1.xArr (Run.in1 m) c = arg m c main_arg0 := at1_keep m c main_arg0

theorem in1_wt : Proj1.wtArr (Run.in1 m) c
    = transpose S128x64 [1, 0] (arg m c main_arg3 : FVec Ideal S64x128 .f32) transposes_S64x128_S128x64_1_0 := by
  show StableHlo.after hostOps0 _ _ = _
  after_results <;> rfl

theorem in1_d : Proj1.dArr (Run.in1 m) c = asCol (dinvArr (dstWords (arg m c main_arg1))) := by
  show StableHlo.after hostOps0 _ _ = _
  after_results <;> rfl

theorem hs1_read (v : Fin 100000) (j : Fin 64) :
    (R2 m c main_v13 : FVec Ideal S100000x64 .f32) (ix2 v j) = Net.KSpec.hs1 (inputs m c) v j := by
  rw [at2_v13, Proj1.out_apply, in1_x, in1_wt, in1_d, asCol_apply, dinv_read]
  unfold Net.KSpec.hs1 Net.KSpec.scaled Net.Spec.lin1
  refine congrArg (fun t : EReal => t * Net.dinv (inputs m c) v) (Finset.sum_congr rfl fun k _ => ?_)
  rw [transpose_ix2_apply]
  rfl

theorem in3_agg : NormProj2.aggArr (Run.in3 m) c
    = edgeSum (srcWords (arg m c main_arg1)) (dstWords (arg m c main_arg1)) (R2 m c main_v13) := by
  rw [← at1_v1 m c, ← at1_v3 m c, ← at2_keep m c main_v1, ← at2_keep m c main_v3]
  show StableHlo.after hostOps1 _ _ = _
  after_results <;> rfl

theorem in3_own : NormProj2.ownArr (Run.in3 m) c = (R2 m c main_v13 : FVec Ideal S100000x64 .f32) :=
  at3_keep m c main_v13

theorem in3_d : NormProj2.dArr (Run.in3 m) c = asCol (dinvArr (dstWords (arg m c main_arg1))) := by
  rw [← at1_v10 m c, ← at2_keep m c main_v10]
  show StableHlo.after hostOps1 _ _ = _
  after_results <;> rfl

theorem in3_scale : NormProj2.scaleArr (Run.in3 m) c = asRow (bnScale (arg m c main_arg5) (arg m c main_arg8)) := by
  rw [← at2_arg m c main_arg5, ← at2_arg m c main_arg8]
  show StableHlo.after hostOps1 _ _ = _
  after_results <;> rfl

theorem in3_shift : NormProj2.shiftArr (Run.in3 m) c
    = asRow (bnShift (arg m c main_arg4) (arg m c main_arg7) (arg m c main_arg6) (bnScale (arg m c main_arg5) (arg m c main_arg8))) := by
  rw [← at2_arg m c main_arg4, ← at2_arg m c main_arg7, ← at2_arg m c main_arg6, ← at2_arg m c main_arg5, ← at2_arg m c main_arg8]
  show StableHlo.after hostOps1 _ _ = _
  after_results <;> rfl

theorem in3_wt : NormProj2.wtArr (Run.in3 m) c
    = transpose S64x64 [1, 0] (arg m c main_arg9 : FVec Ideal S64x64 .f32) transposes_S64x64_S64x64_1_0 := by
  rw [← at2_arg m c main_arg9]
  show StableHlo.after hostOps1 _ _ = _
  after_results <;> rfl

theorem a1_read (v : Fin 100000) (k : Fin 64) :
    NormProj2.act (Run.in3 m) c v k = Net.KSpec.a1 (inputs m c) v k := by
  unfold NormProj2.act
  rw [in3_agg, in3_own, in3_d, in3_scale, in3_shift, asCol_apply, dinv_read, asRow_apply, asRow_apply,
    edge_read m c _ (Net.KSpec.hs1 (inputs m c)) (hs1_read m c), hs1_read, bnShift_apply, bnScale_apply]
  rfl

theorem hs2_read (v : Fin 100000) (j : Fin 64) :
    (R4 m c main_v35 : FVec Ideal S100000x64 .f32) (ix2 v j) = Net.KSpec.hs2 (inputs m c) v j := by
  rw [at4_v35, NormProj2.out_apply, in3_wt, in3_d, asCol_apply, dinv_read]
  unfold Net.KSpec.hs2 Net.KSpec.scaled
  refine congrArg (fun t : EReal => t * Net.dinv (inputs m c) v) (Finset.sum_congr rfl fun k _ => ?_)
  rw [a1_read, transpose_ix2_apply]
  rfl

theorem in5_agg : NormPool.aggArr (Run.in5 m) c
    = edgeSum (srcWords (arg m c main_arg1)) (dstWords (arg m c main_arg1)) (R4 m c main_v35) := by
  rw [← at1_v1 m c, ← at1_v3 m c, ← at4_keep m c main_v1, ← at4_keep m c main_v3]
  show StableHlo.after hostOps2 _ _ = _
  after_results <;> rfl

theorem in5_own : NormPool.ownArr (Run.in5 m) c = (R4 m c main_v35 : FVec Ideal S100000x64 .f32) :=
  at5_keep m c main_v35

theorem in5_d : NormPool.dArr (Run.in5 m) c = asCol (dinvArr (dstWords (arg m c main_arg1))) := by
  rw [← at1_v10 m c, ← at4_keep m c main_v10]
  show StableHlo.after hostOps2 _ _ = _
  after_results <;> rfl

theorem in5_scale : NormPool.scaleArr (Run.in5 m) c = asRow (bnScale (arg m c main_arg11) (arg m c main_arg14)) := by
  rw [← at4_arg m c main_arg11, ← at4_arg m c main_arg14]
  show StableHlo.after hostOps2 _ _ = _
  after_results <;> rfl

theorem at5_v55 : (Run.at5 m c (Proc.devRef .tc main_v55) : FVec Ideal S1x64 .f32)
    = asRow (bnShift (R4 m c main_arg10) (R4 m c main_arg13) (R4 m c main_arg12) (bnScale (R4 m c main_arg11) (R4 m c main_arg14))) := by
  show StableHlo.after hostOps2 _ _ = _
  after_results <;> rfl

theorem in5_shift : NormPool.shiftArr (Run.in5 m) c
    = asRow (bnShift (arg m c main_arg10) (arg m c main_arg13) (arg m c main_arg12) (bnScale (arg m c main_arg11) (arg m c main_arg14))) :=
  (at5_v55 m c).trans (by rw [at4_arg m c main_arg10, at4_arg m c main_arg13, at4_arg m c main_arg12, at4_arg m c main_arg11, at4_arg m c main_arg14])

theorem in5_id : NormPool.idArr (Run.in5 m) c = asCol (arg m c main_arg2 : IVec S100000 32) := by
  rw [← at4_arg m c main_arg2]
  show StableHlo.after hostOps2 _ _ = _
  after_results <;> rfl

theorem in5_head : NormPool.headArr (Run.in5 m) c
    = transpose S64x1 [1, 0] (arg m c main_arg15 : FVec Ideal S1x64 .f32) transposes_S1x64_S64x1_1_0 := by
  rw [← at4_arg m c main_arg15]
  show StableHlo.after hostOps2 _ _ = _
  after_results <;> rfl

theorem in5_bias : NormPool.biasArr (Run.in5 m) c = shapeCast S1x1 (arg m c main_arg16 : FVec Ideal S1 .f32) shapeCasts_S1_S1x1 := by
  rw [← at4_arg m c main_arg16]
  show StableHlo.after hostOps2 _ _ = _
  after_results <;> rfl

theorem a2_read (n : Fin 100000) (j : Fin 64) :
    NormPool.act (Run.in5 m) c n j = Net.KSpec.a2 (inputs m c) n j := by
  unfold NormPool.act
  rw [in5_agg, in5_own, in5_d, in5_scale, in5_shift, asCol_apply, dinv_read, asRow_apply, asRow_apply,
    edge_read m c _ (Net.KSpec.hs2 (inputs m c)) (hs2_read m c), hs2_read, bnShift_apply, bnScale_apply]
  rfl

theorem hot_read (n : Fin 100000) (g : Fin 256) :
    NormPool.hot (Run.in5 m) c n g = Net.KSpec.hot (inputs m c) n g.val := by
  unfold NormPool.hot
  rw [in5_id, asCol_apply]
  rfl

theorem sums_read (g : Fin 256) (j : Fin 64) :
    NormPool.sums (Run.in5 m) c g j = Net.KSpec.sums (inputs m c) g.val j := by
  unfold NormPool.sums Net.KSpec.sums
  exact Finset.sum_congr rfl fun n _ => by rw [hot_read, a2_read]

theorem cnts_read (g : Fin 256) :
    NormPool.cnts (Run.in5 m) c g = Net.KSpec.cnts (inputs m c) g.val := by
  unfold NormPool.cnts Net.KSpec.cnts
  exact Finset.sum_congr rfl fun n _ => by rw [hot_read]

theorem bias_apply (x : FVec Ideal S1 .f32) :
    shapeCast S1x1 x shapeCasts_S1_S1x1 (ix2 (0 : Fin 1) (0 : Fin 1)) = x (ix1 (0 : Fin 1)) :=
  shapeCast_a_1a_apply x shapeCasts_S1_S1x1 0 0

theorem out_read (g : Fin 256) :
    (Run.at6 m c (Proc.devRef .tc main_v59) : FVec Ideal S256x1 .f32) (ix2 g (0 : Fin 1)) = Net.KSpec.out (inputs m c) g.val := by
  rw [at6_v59, NormPool.out_apply, in5_head, in5_bias, bias_apply, cnts_read]
  unfold Net.KSpec.out
  refine congrArg (fun t : EReal => t + (inputs m c).bl) (Finset.sum_congr rfl fun j _ => ?_)
  rw [sums_read, transpose_ix2_apply]
  rfl

-- Row g < 200 of the 256 computed rows.
theorem result_eq (g : Fin 200) :
    (Run.at7 m c (Proc.devRef .tc main_v60) : Vec Ideal S200x1 .f32) (ix2 g (0 : Fin 1))
      = Net.KSpec.out (inputs m c) g.val := by
  rw [at7_v60, slice2_axis0_apply 0 _ slices_S256x1_S200x1_0_0 g (0 : Fin 1)
    (⟨g.val, Nat.lt_of_lt_of_le g.isLt (by norm_num)⟩ : Fin 256) (Nat.zero_add _).symm]
  exact out_read m c ⟨g.val, Nat.lt_of_lt_of_le g.isLt (by norm_num)⟩

end Cert.KernelIdeal.Reading
end
-- ==== Proof.Ref.Lookups.lean ====
import proofs.«404818_j7687991460117_2_alg».proof.Proof.Ref.Imports
import proofs.«404818_j7687991460117_2_alg».proof.Proof.Math.Words
import proofs.«404818_j7687991460117_2_alg».proof.Proof.LibRowLookup
import Idealize.ShloMosaic.Lib.StableHlo.Predicate

noncomputable section

namespace Cert.ReferenceIdeal.Reading

open Cert.ReferenceIdeal Cert.ReferenceIdeal.Gen Cert.ReferenceIdeal.Read Cert.Proof
open Idealize.ShloMosaic Idealize.ShloMosaic.ValueIdx Idealize.ShloMosaic.RowLookup Idealize.ShloMosaic.StableHlo.Predicate

theorem ofFin_eq {n : Nat} (p : Fin n) : Shape.Idx.ofFin p = ix1 p := funext fun | ⟨0, _⟩ => rfl

theorem ixP_eq {n : Nat} (p : Fin n) : ixP p = ix2 p (0 : Fin 1) := funext fun | ⟨0, _⟩ => rfl | ⟨1, _⟩ => rfl

-- Row `p` of a vector stood up as a column is the vector's entry `p`.
theorem col_apply {α : Type} {n : Nat} (h : (⟨1, ![n]⟩ : Shape).BroadcastsInDim ⟨2, ![n, 1]⟩ ![0])
    (y : (⟨1, ![n]⟩ : Shape).Idx → α) (p : Fin n) :
    broadcastInDim ⟨2, ![n, 1]⟩ ![0] h y (ix2 p (0 : Fin 1)) = y (ix1 p) := by
  rw [← ixP_eq, bcast_col1, ofFin_eq]

-- A column spread over `m` columns: entry `(p, q)` is the column's entry `p`.
theorem spread_apply {α : Type} {n m : Nat} (h : (⟨2, ![n, 1]⟩ : Shape).BroadcastsInDim ⟨2, ![n, m]⟩ ![0, 1])
    (y : (⟨2, ![n, 1]⟩ : Shape).Idx → α) (p : Fin n) (q : Fin m) :
    broadcastInDim ⟨2, ![n, m]⟩ ![0, 1] h y (ix2 p q) = y (ix2 p (0 : Fin 1)) :=
  (bcast_of_col h y p q).trans (congrArg y (ixP_eq p))

-- A vector laid out as a row and repeated down `n` rows: entry `(p, q)` is the vector's entry `q`.
theorem chan_apply {α : Type} {n m : Nat} (h₁ : (⟨1, ![m]⟩ : Shape).BroadcastsInDim ⟨2, ![1, m]⟩ ![1])
    (h₂ : (⟨2, ![1, m]⟩ : Shape).BroadcastsInDim ⟨2, ![n, m]⟩ ![0, 1]) (y : (⟨1, ![m]⟩ : Shape).Idx → α) (p : Fin n) (q : Fin m) :
    broadcastInDim ⟨2, ![n, m]⟩ ![0, 1] h₂ (broadcastInDim ⟨2, ![1, m]⟩ ![1] h₁ y) (ix2 p q) = y (ix1 q) :=
  (bcast_cols h₁ h₂ y p q).trans (congrArg y (ofFin_eq q))

-- A flat accumulating scatter onto zeros, read at segment `v`: the sum of the updates whose signed index word is `v`.
theorem flatSegSum {N E : Nat} {wf : ScatterDims.WF ⟨1, ![N]⟩ ⟨2, ![E, 1]⟩ ⟨1, ![E]⟩ [] [0] [0] 1}
    {d : ScatterDims ⟨1, ![N]⟩ ⟨2, ![E, 1]⟩ ⟨1, ![E]⟩} (hd : d = flatScatterDims N E wf)
    {z : (⟨1, ![N]⟩ : Shape).Idx → EReal} (hz : ∀ i, z i = 0) {idx : IVec ⟨2, ![E, 1]⟩ 32} {b : Fin E → BitVec 32}
    (hidx : ∀ e, idx (ix2 e (0 : Fin 1)) = b e) {u : (⟨1, ![E]⟩ : Shape).Idx → EReal} {f : Fin E → EReal}
    (hu : ∀ e, u (ix1 e) = f e) (v : Fin N) :
    Host.scatterAdd (F := Ideal) (φ := .f32) d z idx u (ix1 v)
      = ∑ e : Fin E, if (b e).toInt = (v.val : ℤ) then f e else 0 := by
  subst hd
  refine (flatScatterAdd_apply wf z idx u v).trans ?_
  rw [hz, zero_add]
  exact Finset.sum_congr rfl fun e _ => by rw [hidx, hu]

-- The same for whole rows, read at segment `v`, column `j`.
theorem rowSegSum {N C E : Nat} {wf : ScatterDims.WF ⟨2, ![N, C]⟩ ⟨2, ![E, 1]⟩ ⟨2, ![E, C]⟩ [1] [0] [0] 1}
    {d : ScatterDims ⟨2, ![N, C]⟩ ⟨2, ![E, 1]⟩ ⟨2, ![E, C]⟩} (hd : d = rowScatterDims N C E wf)
    {z : (⟨2, ![N, C]⟩ : Shape).Idx → EReal} (hz : ∀ i, z i = 0) {idx : IVec ⟨2, ![E, 1]⟩ 32} {b : Fin E → BitVec 32}
    (hidx : ∀ e, idx (ix2 e (0 : Fin 1)) = b e) {u : (⟨2, ![E, C]⟩ : Shape).Idx → EReal} {f : Fin E → Fin C → EReal}
    (hu : ∀ e j, u (ix2 e j) = f e j) (v : Fin N) (j : Fin C) :
    Host.scatterAdd (F := Ideal) (φ := .f32) d z idx u (ix2 v j)
      = ∑ e : Fin E, if (b e).toInt = (v.val : ℤ) then f e j else 0 := by
  subst hd
  refine (rowScatterAdd_apply wf z idx u v j).trans ?_
  rw [hz, zero_add]
  exact Finset.sum_congr rfl fun e _ => by rw [hidx, hu]

-- A per-node scalar looked up at edge `e` by a column whose word there is the wrapped word of `b`: the scalar at the node `b` names.
theorem flatLookup {α : Type} (x : S100000.Idx → α) (idx : IVec S3200000x1 32) (b : BitVec 32) (e : Fin 3200000)
    (h : idx (ix2 e (0 : Fin 1)) = Net.wrapWord b) :
    Host.gather gather_S100000_S3200000x1_S3200000_n_0_n_n_0_1_1 x idx (ix1 e) = x (ix1 (Net.nodeOf b)) := by
  have hg := gather_take gather_S100000_S3200000x1_S3200000_n_0_n_n_0_1_1 rfl rfl rfl rfl x idx e (by norm_num)
  rw [ofFin_eq, ofFin_eq] at hg
  exact hg.trans (congrArg x (congrArg ix1 (Fin.ext
    (by show min (idx (ixP e)).toInt.toNat _ = _; rw [ixP_eq, h]; rfl))))

theorem rowGather_eq : gather_S100000x64_S3200000x1_S3200000x64_1_0_n_n_0_1_164
    = rowGatherDims 100000 64 3200000 Facts₀.gather_S100000x64_S3200000x1_S3200000x64_1_0_n_n_0_1_164_wf := rfl

-- A per-node row looked up at edge `e`, column `j`: column `j` of the row of the node `b` names.
theorem rowLookup {α : Type} (x : S100000x64.Idx → α) (idx : IVec S3200000x1 32) (b : BitVec 32) (e : Fin 3200000) (j : Fin 64)
    (h : idx (ix2 e (0 : Fin 1)) = Net.wrapWord b) :
    Host.gather gather_S100000x64_S3200000x1_S3200000x64_1_0_n_n_0_1_164 x idx (ix2 e j) = x (ix2 (Net.nodeOf b) j) := by
  rw [rowGather_eq, rowGather_apply (by norm_num)]
  exact congrArg (fun w => x (ix2 ⟨rowOf 100000 w, rowOf_lt (by norm_num) w⟩ j)) h

-- The seventeen argument arrays, in the program's order, under one name.
structure Arrays where
  x0 : FVec Ideal S100000x128 .f32
  x1 : IVec S2x3200000 32
  x2 : IVec S100000 32
  x3 : FVec Ideal S64x128 .f32
  (x4 x5 x6 x7 x8 : FVec Ideal S64 .f32)
  x9 : FVec Ideal S64x64 .f32
  (x10 x11 x12 x13 x14 : FVec Ideal S64 .f32)
  x15 : FVec Ideal S1x64 .f32
  x16 : FVec Ideal S1 .f32

-- The network's inputs the arrays hold.
def Arrays.net (A : Arrays) : Net.Inputs :=
  Net.Inputs.ofArrays A.x0 A.x1 A.x2 A.x3 A.x4 A.x5 A.x6 A.x7 A.x8 A.x9 A.x10 A.x11 A.x12 A.x13 A.x14 A.x15 A.x16

end Cert.ReferenceIdeal.Reading

end
-- ==== Proof.Ref.Pool.lean ====
import proofs.«404818_j7687991460117_2_alg».proof.Proof.Ref.Lookups

noncomputable section

namespace Cert.ReferenceIdeal.Reading

open Cert.ReferenceIdeal Cert.ReferenceIdeal.Gen Cert.ReferenceIdeal.Read Cert.Proof
open Idealize.ShloMosaic Idealize.ShloMosaic.ValueIdx Idealize.ShloMosaic.RowLookup

variable (A : Arrays)

-- The node count of graph `g`, clamped below at one, spread along the channels.
theorem clamp_read (g : Fin 200) (j : Fin 64) :
    val_main_v125 (F := Ideal) A.x2 (ix2 g j) = max (Net.intoGraph A.net (fun _ => 1) g.val) 1 := by
  rw [val_main_v125_apply, val_main_v124_apply, val_main_v123_apply, val_main_v122_apply, val_main_cst_20_apply,
    show idx_main_v124 (idx_main_v125 (ix2 g j)) = ix1 g from funext fun | ⟨0, _⟩ => rfl, Ideal.maximumf_def,
    Ideal.ofBits_def, Net.one_f32]
  exact congrArg (max · 1)
    (flatSegSum rfl (fun _ => Ideal.ofBits_zero_f32) (fun n => col_apply _ A.x2 n) (fun _ => Net.one_f32) g)

-- Per graph the mean pool divides the segment sum of `h2` by the clamped node count; the head contracts the 64 pooled channels with the weight row and adds the bias.
theorem pool_head_read (h2 : Fin 100000 → Fin 64 → EReal)
    (hh2 : ∀ (n : Fin 100000) (j : Fin 64), val_main_v114 (F := Ideal) A.x0 A.x1 A.x3 A.x4 A.x5 A.x6 A.x7 A.x8 A.x9 A.x10 A.x11 A.x12 A.x13 A.x14 (ix2 n j) = h2 n j)
    (g : Fin 200) :
    val_main_v131 (F := Ideal) A.x0 A.x1 A.x2 A.x3 A.x4 A.x5 A.x6 A.x7 A.x8 A.x9 A.x10 A.x11 A.x12 A.x13 A.x14 A.x15 A.x16 (ix2 g (0 : Fin 1))
      = (∑ j : Fin 64, Ideal.div (Net.intoGraph A.net (fun n => h2 n j) g.val) (max (Net.intoGraph A.net (fun _ => 1) g.val) 1) * A.net.Wl j)
          + A.net.bl := by
  rw [val_main_v131_apply, val_main_v128_apply, val_main_v130_apply, val_main_v129_apply, Ideal.addf_def]
  refine congrArg₂ (· + ·) (Finset.sum_congr rfl fun k _ => ?_) (congrArg A.x16 (funext fun | ⟨0, _⟩ => rfl))
  rw [val_main_v126_apply, val_main_v127_apply, Ideal.hostDivf_def,
    show lidx_main_v128 (ix2 g (0 : Fin 1)) k = ix2 g k from funext fun | ⟨0, _⟩ => rfl | ⟨1, _⟩ => rfl, clamp_read]
  refine congrArg₂ (· * ·) (congrArg₂ Ideal.div ?_ rfl) (congrArg A.x15 (funext fun | ⟨0, _⟩ => rfl | ⟨1, _⟩ => rfl))
  exact rowSegSum rfl (fun _ => Ideal.ofBits_zero_f32) (fun n => col_apply _ A.x2 n) hh2 g k

end Cert.ReferenceIdeal.Reading

end
-- ==== Proof.Ref.Reading.lean ====
import proofs.«404818_j7687991460117_2_alg».proof.Proof.Ref.Pool

noncomputable section

namespace Cert.ReferenceIdeal.Reading

open Cert.ReferenceIdeal Cert.ReferenceIdeal.Gen Cert.ReferenceIdeal.Read Cert.Proof
open Idealize.ShloMosaic Idealize.ShloMosaic.ValueIdx Idealize.ShloMosaic.RowLookup

variable (A : Arrays)

theorem srcWord (e : Fin 3200000) : val_main_v1 (F := Ideal) A.x1 (ix1 e) = A.net.src e := by
  rw [val_main_v1_apply, val_main_v0_apply]
  exact congrArg A.x1 (funext fun | ⟨0, _⟩ => rfl | ⟨1, _⟩ => Fin.ext (Nat.mod_eq_of_lt e.isLt))

theorem dstWord (e : Fin 3200000) : val_main_v3 (F := Ideal) A.x1 (ix1 e) = A.net.dst e := by
  rw [val_main_v3_apply, val_main_v2_apply]
  exact congrArg A.x1 (funext fun | ⟨0, _⟩ => rfl | ⟨1, _⟩ => Fin.ext (Nat.mod_eq_of_lt e.isLt))

-- The wrap of a vector of index words, stood up as a column: a negative word has the node count added.
noncomputable def wrapCol (w : IVec S3200000 32) : IVec S3200000x1 32 :=
  broadcastInDim S3200000x1 ![0] Facts₀.bcast_S3200000_S3200000x1_0 (select (cmpi .slt w fun _ => 0#32) (addi w fun _ => 100000#32) w)

theorem wrapCol_read (w : IVec S3200000 32) (b : Fin 3200000 → BitVec 32) (hw : ∀ e, w (ix1 e) = b e) (e : Fin 3200000) :
    wrapCol w (ix2 e (0 : Fin 1)) = Net.wrapWord (b e) :=
  (col_apply _ _ e).trans (congrArg Net.wrapWord (hw e))

-- The raw target column a scatter reads: row `e` holds edge `e`'s target word.
theorem tgtCol (e : Fin 3200000) :
    broadcastInDim S3200000x1 ![0] Facts₀.bcast_S3200000_S3200000x1_0 (val_main_v3 (F := Ideal) A.x1) (ix2 e (0 : Fin 1)) = A.net.dst e :=
  (col_apply _ _ e).trans (dstWord A e)

-- The number of edges into `v`: ones scattered onto zeros by the raw target column.
theorem degCount (v : Fin 100000) : val_main_v7 (F := Ideal) A.x1 (ix1 v) = Net.intoNode A.net (fun _ => 1) v :=
  flatSegSum rfl (fun _ => Ideal.ofBits_zero_f32) (tgtCol A) (fun _ => Net.one_f32) v

theorem dinv_read (v : Fin 100000) : val_main_v10 (F := Ideal) A.x1 (ix1 v) = Net.dinv A.net v := by
  rw [val_main_v10_apply, val_main_v9_apply, degCount, val_main_v8_apply, val_main_cst_1_apply,
    Ideal.hostUnary_rsqrt_def, Ideal.addf_def, Ideal.ofBits_def, Net.one_f32]
  rfl

-- A per-channel vector as a row, repeated for every node.
noncomputable def chan (y : FVec Ideal S64 .f32) : FVec Ideal S100000x64 .f32 :=
  broadcastInDim S100000x64 ![0, 1] Facts₀.bcast_S1x64_S100000x64_0_1 (broadcastInDim S1x64 ![1] Facts₀.bcast_S64_S1x64_1 y)

-- One layer as the program arranges it, from its linear features and the per-channel bias, mean, scale, variance and shift.
noncomputable def layerProg (x1 : IVec S2x3200000 32) (lin : FVec Ideal S100000x64 .f32) (b mu gam var be : FVec Ideal S64 .f32) :
    FVec Ideal S100000x64 .f32 :=
  maximumf (addf (mulf (subf (addf (addf
    (Host.scatterAdd scatter_S100000x64_S3200000x1_S3200000x64_1_0_0_1 (fun _ => Ideal.ofBits .f32 0#32)
      (broadcastInDim S3200000x1 ![0] Facts₀.bcast_S3200000_S3200000x1_0 (val_main_v3 (F := Ideal) x1))
      (mulf (Host.gather gather_S100000x64_S3200000x1_S3200000x64_1_0_n_n_0_1_164 lin (wrapCol (val_main_v1 (F := Ideal) x1)))
        (broadcastInDim S3200000x64 ![0, 1] Facts₀.bcast_S3200000x1_S3200000x64_0_1
          (broadcastInDim S3200000x1 ![0] Facts₀.bcast_S3200000_S3200000x1_0
            (mulf (Host.gather gather_S100000_S3200000x1_S3200000_n_0_n_n_0_1_1 (val_main_v10 (F := Ideal) x1) (wrapCol (val_main_v1 (F := Ideal) x1)))
              (Host.gather gather_S100000_S3200000x1_S3200000_n_0_n_n_0_1_1 (val_main_v10 (F := Ideal) x1) (wrapCol (val_main_v3 (F := Ideal) x1))))))))
    (mulf lin (broadcastInDim S100000x64 ![0, 1] Facts₀.bcast_S100000x1_S100000x64_0_1
      (broadcastInDim S100000x1 ![0] Facts₀.bcast_S100000_S100000x1_0
        (mulf (val_main_v10 (F := Ideal) x1) (val_main_v10 (F := Ideal) x1))))))
    (chan b)) (chan mu)) (chan (mulf gam (Host.rsqrt (addf var fun _ => Net.eps))))) (chan be))
    fun _ => Ideal.ofBits .f32 0#32

-- The layer read at node `v`, channel `j`: the convolution of the linear features `L`, then its batch-norm and rectifier.
theorem layerProg_read {lin : FVec Ideal S100000x64 .f32} {L : Fin 100000 → Fin 64 → EReal} (hlin : ∀ v j, lin (ix2 v j) = L v j)
    (b mu gam var be : FVec Ideal S64 .f32) (v : Fin 100000) (j : Fin 64) :
    layerProg A.x1 lin b mu gam var be (ix2 v j)
      = Net.Spec.normRelu (Net.Spec.conv A.net L fun j => b (ix1 j)) (fun j => gam (ix1 j)) (fun j => be (ix1 j))
          (fun j => mu (ix1 j)) (fun j => var (ix1 j)) v j := by
  unfold layerProg Net.Spec.normRelu Net.Spec.conv Net.intoNode chan
  rw [maximumf_apply, addf_apply, mulf_apply, subf_apply, addf_apply, addf_apply, mulf_apply,
    rowSegSum (d := scatter_S100000x64_S3200000x1_S3200000x64_1_0_0_1) rfl (fun _ => Ideal.ofBits_zero_f32) (tgtCol A)
      (fun e j => by
        rw [mulf_apply, rowLookup _ _ _ e j (wrapCol_read _ _ (srcWord A) e), spread_apply, col_apply, mulf_apply,
          flatLookup _ _ _ e (wrapCol_read _ _ (srcWord A) e), flatLookup _ _ _ e (wrapCol_read _ _ (dstWord A) e),
          dinv_read, dinv_read, hlin]) v j,
    spread_apply, col_apply, mulf_apply, dinv_read, chan_apply, chan_apply, chan_apply, chan_apply, mulf_apply, hlin, Ideal.ofBits_zero_f32]
  rfl

-- The first layer's linear features: the node's 128 features against row `j` of the weight.
theorem lin1_read (v : Fin 100000) (j : Fin 64) : val_main_v12 (F := Ideal) A.x0 A.x3 (ix2 v j) = Net.Spec.lin1 A.net v j := by
  rw [val_main_v12_apply]
  refine Finset.sum_congr rfl fun k _ => ?_
  rw [val_main_v11_apply]
  exact congrArg₂ (· * ·) (congrArg A.x0 (funext fun | ⟨0, _⟩ => rfl | ⟨1, _⟩ => rfl))
    (congrArg A.x3 (funext fun | ⟨0, _⟩ => rfl | ⟨1, _⟩ => rfl))

theorem h1_read (v : Fin 100000) (j : Fin 64) :
    val_main_v62 (F := Ideal) A.x0 A.x1 A.x3 A.x4 A.x5 A.x6 A.x7 A.x8 (ix2 v j) = Net.Spec.h1 A.net v j :=
  layerProg_read A (lin1_read A) A.x4 A.x7 A.x5 A.x8 A.x6 v j

-- The second layer's linear features: the first layer's 64 outputs against row `j` of the second weight.
theorem lin2_read (v : Fin 100000) (j : Fin 64) :
    val_main_v64 (F := Ideal) A.x0 A.x1 A.x3 A.x4 A.x5 A.x6 A.x7 A.x8 A.x9 (ix2 v j) = Net.Spec.lin2 A.net v j := by
  rw [val_main_v64_apply]
  refine Finset.sum_congr rfl fun k _ => ?_
  rw [val_main_v63_apply, show lidx_main_v64 (ix2 v j) k = ix2 v k from funext fun | ⟨0, _⟩ => rfl | ⟨1, _⟩ => rfl, h1_read]
  exact congrArg (Net.Spec.h1 A.net v k * ·) (congrArg A.x9 (funext fun | ⟨0, _⟩ => rfl | ⟨1, _⟩ => rfl))

theorem h2_read (v : Fin 100000) (j : Fin 64) :
    val_main_v114 (F := Ideal) A.x0 A.x1 A.x3 A.x4 A.x5 A.x6 A.x7 A.x8 A.x9 A.x10 A.x11 A.x12 A.x13 A.x14 (ix2 v j) = Net.Spec.h2 A.net v j :=
  layerProg_read A (lin2_read A) A.x10 A.x13 A.x11 A.x14 A.x12 v j

-- The reference's result at graph `g` is the plain arrangement's value on the inputs the arrays hold.
theorem result_eq (x0 : (⟨S100000x128, .f32⟩ : BufTy).Contents (Elt Ideal)) (x1 : (⟨S2x3200000, .i32⟩ : BufTy).Contents (Elt Ideal)) (x2 : (⟨S100000, .i32⟩ : BufTy).Contents (Elt Ideal))
    (x3 : (⟨S64x128, .f32⟩ : BufTy).Contents (Elt Ideal)) (x4 x5 x6 x7 x8 : (⟨S64, .f32⟩ : BufTy).Contents (Elt Ideal)) (x9 : (⟨S64x64, .f32⟩ : BufTy).Contents (Elt Ideal))
    (x10 x11 x12 x13 x14 : (⟨S64, .f32⟩ : BufTy).Contents (Elt Ideal)) (x15 : (⟨S1x64, .f32⟩ : BufTy).Contents (Elt Ideal)) (x16 : (⟨S1, .f32⟩ : BufTy).Contents (Elt Ideal)) (g : Fin 200) :
    val_main_v131 (F := Ideal) x0 x1 x2 x3 x4 x5 x6 x7 x8 x9 x10 x11 x12 x13 x14 x15 x16 (ix2 g (0 : Fin 1))
      = Net.Spec.out (Net.Inputs.ofArrays x0 x1 x2 x3 x4 x5 x6 x7 x8 x9 x10 x11 x12 x13 x14 x15 x16) g :=
  pool_head_read ⟨x0, x1, x2, x3, x4, x5, x6, x7, x8, x9, x10, x11, x12, x13, x14, x15, x16⟩ _ (h2_read _) g

end Cert.ReferenceIdeal.Reading

end
-- ==== Proof.Math.Layer.lean ====
import proofs.«404818_j7687991460117_2_alg».proof.Proof.Math.Net
import proofs.«404818_j7687991460117_2_alg».proof.Proof.Math.Words

noncomputable section

open scoped BigOperators

namespace Cert.Proof.Net

open Idealize.ShloMosaic Idealize.ShloMosaic.RowLookup

variable (I : Inputs)

namespace Layer

-- The embedding ℝ → EReal commutes with finite sums.
theorem coe_sum {ι : Type*} (s : Finset ι) (f : ι → ℝ) : ∑ i ∈ s, ((f i : ℝ) : EReal) = ((∑ i ∈ s, f i : ℝ) : EReal) := by
  induction s using Finset.cons_induction with
  | empty => simp
  | cons a s ha ih => rw [Finset.sum_cons, Finset.sum_cons, ih, EReal.coe_add]

-- It is monotone, hence commutes with max.
theorem coe_max_zero (a : ℝ) : max ((a : ℝ) : EReal) 0 = ((max a 0 : ℝ) : EReal) :=
  (EReal.coe_strictMono.monotone.map_max).symm

theorem rsqrt_of_pos (r : ℝ) (hr : 0 < r) : Ideal.rsqrt (r : EReal) = (((Real.sqrt r)⁻¹ : ℝ) : EReal) := by
  rw [Ideal.rsqrt_coe, if_neg (not_lt.2 hr.le), if_neg hr.ne']

-- Pointwise real-valued means: equal to the embedding of some real family.
theorem lift1 {ι : Type*} {f : ι → EReal} (h : ∀ i, ∃ r : ℝ, f i = r) : ∃ F : ι → ℝ, f = fun i => (F i : EReal) :=
  ⟨fun i => (h i).choose, funext fun i => (h i).choose_spec⟩

theorem lift2 {ι κ : Type*} {f : ι → κ → EReal} (h : ∀ i k, ∃ r : ℝ, f i k = r) :
    ∃ F : ι → κ → ℝ, f = fun i k => (F i k : EReal) :=
  ⟨fun i k => (h i k).choose, funext fun i => funext fun k => (h i k).choose_spec⟩

-- If b's signed value is v then b names node v.
theorem nodeOf_of_toInt (b : BitVec 32) (v : Fin 100000) (h : b.toInt = (v.val : ℤ)) : nodeOf b = v := by
  have hw : wrapWord b = b := by
    have hs : b.slt 0#32 = false := by
      simp only [BitVec.slt, BitVec.toInt_zero, decide_eq_false_iff_not, not_lt, h]
      exact Int.natCast_nonneg _
    unfold wrapWord Scalar.select IntOp.cmpi
    simp [hs]
  apply Fin.ext
  show rowOf 100000 (wrapWord b) = v.val
  rw [hw]
  exact rowOf_of_toInt_eq b v h

noncomputable def sumInto (f : Fin 3200000 → ℝ) (v : Fin 100000) : ℝ :=
  ∑ e : Fin 3200000, if (I.dst e).toInt = (v.val : ℤ) then f e else 0

theorem intoNode_coe (f : Fin 3200000 → ℝ) (v : Fin 100000) :
    intoNode I (fun e => (f e : EReal)) v = (sumInto I f v : EReal) := by
  unfold intoNode sumInto
  rw [← coe_sum]
  exact Finset.sum_congr rfl fun e _ => (apply_ite Real.toEReal _ (f e) 0).symm

-- Σ (f e · d) = (Σ f e) · d over the edges into v.
theorem sumInto_mul (f : Fin 3200000 → ℝ) (d : ℝ) (v : Fin 100000) :
    sumInto I (fun e => f e * d) v = sumInto I f v * d := by
  unfold sumInto
  rw [Finset.sum_mul]
  exact Finset.sum_congr rfl fun e _ => by rw [ite_mul, zero_mul]

-- Inside the sum into v one may replace the target of e by v.
theorem intoNode_dst (u : Fin 3200000 → Fin 100000 → EReal) (v : Fin 100000) :
    intoNode I (fun e => u e (nodeOf (I.dst e))) v = intoNode I (fun e => u e v) v := by
  unfold intoNode
  exact Finset.sum_congr rfl fun e _ => ite_congr rfl (fun h => congrArg (u e) (nodeOf_of_toInt _ v h)) fun _ => rfl

end Layer

open Layer

-- dinv v = 1/√(1 + #edges into v), a positive real.
theorem dinv_pos_real (v : Fin 100000) : ∃ r : ℝ, 0 < r ∧ dinv I v = (r : EReal) := by
  have h : 0 < sumInto I (fun _ => 1) v + 1 :=
    add_pos_of_nonneg_of_pos (Finset.sum_nonneg fun e _ => by split_ifs <;> norm_num) one_pos
  refine ⟨_, inv_pos.2 (Real.sqrt_pos.2 h), ?_⟩
  unfold dinv deg
  rw [← rsqrt_of_pos _ h, EReal.coe_add, ← intoNode_coe, EReal.coe_one]

-- With every input replaced by a real, both sides are embeddings of real expressions, equal by ring algebra once the factor dinv v is pulled out of the edge sum.
theorem layer_agree (hlin : Fin 100000 → Fin 64 → EReal) (b g be mu var : Fin 64 → EReal)
    (hh : ∀ v j, ∃ r : ℝ, hlin v j = r) (hb : ∀ j, ∃ r : ℝ, b j = r) (hg : ∀ j, ∃ r : ℝ, g j = r)
    (hbe : ∀ j, ∃ r : ℝ, be j = r) (hmu : ∀ j, ∃ r : ℝ, mu j = r) (hvar : ∀ j, ∃ r : ℝ, var j = r)
    (hvar0 : ∀ j, (0 : EReal) ≤ var j) (v : Fin 100000) (j : Fin 64) :
    KSpec.act I (KSpec.scaled I hlin) (KSpec.scale g var) (KSpec.shift b mu be (KSpec.scale g var)) v j
        = Spec.normRelu (Spec.conv I hlin b) g be mu var v j
      ∧ ∃ r : ℝ, Spec.normRelu (Spec.conv I hlin b) g be mu var v j = r := by
  obtain ⟨H, rfl⟩ := lift2 hh
  obtain ⟨B, rfl⟩ := lift1 hb
  obtain ⟨G, rfl⟩ := lift1 hg
  obtain ⟨Be, rfl⟩ := lift1 hbe
  obtain ⟨Mu, rfl⟩ := lift1 hmu
  obtain ⟨Var, rfl⟩ := lift1 hvar
  choose D hDpos hD using dinv_pos_real I
  obtain ⟨ε, hε, he⟩ := eps_pos
  have hrs : Ideal.rsqrt ((Var j : EReal) + eps) = (((Real.sqrt (Var j + ε))⁻¹ : ℝ) : EReal) := by
    rw [he, ← EReal.coe_add, rsqrt_of_pos _ (add_pos_of_nonneg_of_pos (EReal.coe_nonneg.1 (hvar0 j)) hε)]
  unfold KSpec.act KSpec.scaled KSpec.scale KSpec.shift Spec.normRelu Spec.conv
  rw [intoNode_dst I (fun e w => (H (nodeOf (I.src e)) j : EReal) * (dinv I (nodeOf (I.src e)) * dinv I w)) v]
  simp only [hD, hrs, ← EReal.coe_mul, ← EReal.coe_add, ← EReal.coe_sub, intoNode_coe, coe_max_zero, ← mul_assoc, sumInto_mul]
  refine ⟨?_, _, rfl⟩
  congr 2
  ring

theorem sum_mul_real {K : ℕ} (a b : Fin K → EReal) (ha : ∀ k, ∃ r : ℝ, a k = r) (hb : ∀ k, ∃ r : ℝ, b k = r) :
    ∃ r : ℝ, (∑ k : Fin K, a k * b k) = r := by
  obtain ⟨A, rfl⟩ := lift1 ha
  obtain ⟨B, rfl⟩ := lift1 hb
  exact ⟨∑ k : Fin K, A k * B k, by simp only [← EReal.coe_mul, coe_sum]⟩

end Cert.Proof.Net

end
-- ==== Proof.Math.Pool.lean ====
import proofs.«404818_j7687991460117_2_alg».proof.Proof.Math.Net

noncomputable section

open scoped BigOperators

namespace Cert.Proof.Net

open Idealize.ShloMosaic

variable (I : Inputs)

-- A number below 2³¹ is the signed value of its word, and of no other word.
theorem word_eq_iff_toInt (b : BitVec 32) (g : ℕ) (hg : g < 256) : b = BitVec.ofNat 32 g ↔ b.toInt = (g : ℤ) := by
  rw [← BitVec.toInt_inj, BitVec.toInt_ofNat', Int.bmod_eq_of_le (by omega) (by omega)]

-- A one-hot weighted sum is the sum over the slot's nodes.
theorem hot_sum (u : Fin 100000 → EReal) (g : ℕ) (hg : g < 256) :
    (∑ n : Fin 100000, KSpec.hot I n g * u n) = intoGraph I u g :=
  Finset.sum_congr rfl fun n _ => by
    unfold KSpec.hot
    simp only [word_eq_iff_toInt _ g hg, ite_mul, one_mul, zero_mul]

end Cert.Proof.Net

end
-- ==== Proof.Math.Agree.lean ====
import proofs.«404818_j7687991460117_2_alg».proof.Proof.Math.Net
import proofs.«404818_j7687991460117_2_alg».proof.Proof.Math.Layer
import proofs.«404818_j7687991460117_2_alg».proof.Proof.Math.Pool

noncomputable section

open scoped BigOperators

namespace Cert.Proof.Net

variable (I : Inputs)

-- Layer one: real inputs times real weights give real linear features, so the layer lemma applies.
theorem a1_eq (hI : I.Good) (v : Fin 100000) (j : Fin 64) : KSpec.a1 I v j = Spec.h1 I v j ∧ ∃ r : ℝ, Spec.h1 I v j = r :=
  layer_agree I (Spec.lin1 I) I.b1 I.g1 I.be1 I.mu1 I.var1
    (fun v j => sum_mul_real (fun k => I.x v k) (fun k => I.W1 j k) (hI.x v) (hI.W1 j))
    hI.b1 hI.g1 hI.be1 hI.mu1 hI.var1 hI.var1_nonneg v j

-- Layer two: its linear features are the same sums of equal, real first-layer activations.
theorem a2_eq (hI : I.Good) (v : Fin 100000) (j : Fin 64) : KSpec.a2 I v j = Spec.h2 I v j := by
  unfold KSpec.a2 KSpec.hs2
  rw [show (fun v j => ∑ k : Fin 64, KSpec.a1 I v k * I.W2 j k) = Spec.lin2 I from
    funext fun v => funext fun j => Finset.sum_congr rfl fun k _ => by rw [(a1_eq I hI v k).1]]
  exact (layer_agree I (Spec.lin2 I) I.b2 I.g2 I.be2 I.mu2 I.var2
    (fun v j => sum_mul_real (fun k => Spec.h1 I v k) (fun k => I.W2 j k) (fun k => (a1_eq I hI v k).2) (hI.W2 j))
    hI.b2 hI.g2 hI.be2 hI.mu2 hI.var2 hI.var2_nonneg v j).1

-- The pooled sums and counts are one-hot weighted sums of equal activations and of ones; the head is the same expression of them.
theorem KSpec.out_eq_spec (hI : I.Good) (g : Fin 200) : KSpec.out I g.val = Spec.out I g := by
  have hg : g.val < 256 := by have := g.isLt; omega
  unfold KSpec.out Spec.out KSpec.sums KSpec.cnts
  simp only [hot_sum I _ _ hg, a2_eq I hI]

end Cert.Proof.Net

end
-- ==== Proof.Pre.Decode.lean ====
import proofs.«404818_j7687991460117_2_alg».proof.Pre_finite_inputs
import proofs.«404818_j7687991460117_2_alg».proof.Proof.Gen.Pre_finite_inputs
import Idealize.ShloMosaic.PureOps.Ideal.Laws
import Idealize.ShloMosaic.Lib.ReduceAll
import Idealize.ShloMosaic.Lib.WordArith

noncomputable section

namespace Cert.Proof.PreDecode

open Idealize.ShloMosaic Cert.Pre_finite_inputs

def AllReal {S : Shape} (x : S.Idx → EReal) : Prop := ∀ i, ∃ r : ℝ, x i = (r : EReal)

local instance : Subsingleton S_.Idx := ⟨fun a b => funext fun d => d.elim0⟩

-- An extended real whose absolute value is below +∞ is a real number: at ±∞ the absolute value is +∞.
theorem real_of_abs_lt_top (x : Ideal .f32)
    (h : FloatOps.cmpf (F := Ideal) .olt (FloatOps.hostAbsf x) (FloatOps.ofBits .f32 0x7F800000#32) = 1#1) :
    ∃ r : ℝ, x = (r : EReal) := by
  change BitVec.ofBool (decide (max x (-x) < Ideal.ofBits .f32 0x7F800000#32)) = 1#1 at h
  rw [WordArith.ofBool_eq_one_iff, decide_eq_true_iff,
    show Ideal.ofBits .f32 0x7F800000#32 = (⊤ : EReal) by simp [Ideal.ofBits, Ideal.ieee]] at h
  induction x using EReal.rec with
  | bot => simp at h
  | top => simp at h
  | coe r => exact ⟨r, rfl⟩

theorem nonneg_of_ge_zero (x : Ideal .f32)
    (h : FloatOps.cmpf (F := Ideal) .oge x (FloatOps.ofBits .f32 0x00000000#32) = 1#1) : (0 : EReal) ≤ x := by
  change BitVec.ofBool (decide (Ideal.ofBits .f32 0x00000000#32 ≤ x)) = 1#1 at h
  rwa [WordArith.ofBool_eq_one_iff, decide_eq_true_iff, Ideal.ofBits_zero_f32] at h

section
variable {S : Shape} {axes : List (Fin S.rank)} {x : FVec Ideal S .f32}
  {hb : S_.BroadcastsInDim S (![] : Fin 0 → Fin S.rank)} {hr : S.ReducesTo axes S_} {h0 : 0 < S_.numel} {j : S_.Idx}

-- A full and-reduction equal to one gives the compared fact at every index.
theorem allReal_of_all
    (e : Host.reduce IntOp.andi (cmpf .olt (Host.absf x) (broadcastInDim S ![] hb (constant S_ .f32 0x7F800000#32)))
          (constantI S_ 1 1#1) hr h0 j = 1#1) : AllReal x := fun i =>
  real_of_abs_lt_top (x i) (Host.reduce_andi_all _ _ hr h0 j e i)

theorem nonneg_of_all
    (e : Host.reduce IntOp.andi (cmpf .oge x (broadcastInDim S ![] hb (constant S_ .f32 0x00000000#32)))
          (constantI S_ 1 1#1) hr h0 j = 1#1) : ∀ i, (0 : EReal) ≤ x i := fun i =>
  nonneg_of_ge_zero (x i) (Host.reduce_andi_all _ _ hr h0 j e i)

end

-- The precondition is a conjunction of seventeen bits: fifteen say an argument is finite everywhere, two that a variance is nonnegative.
theorem decode (a0 : FVec Ideal S100000x128 .f32) (a1 : IVec S2x3200000 32) (a2 : IVec S100000 32) (a3 : FVec Ideal S64x128 .f32)
    (a4 a5 a6 a7 a8 : FVec Ideal S64 .f32) (a9 : FVec Ideal S64x64 .f32) (a10 a11 a12 a13 a14 : FVec Ideal S64 .f32)
    (a15 : FVec Ideal S1x64 .f32) (a16 : FVec Ideal S1 .f32)
    (h : Cert.Pre_finite_inputs.fn (F := Ideal) a0 a1 a2 a3 a4 a5 a6 a7 a8 a9 a10 a11 a12 a13 a14 a15 a16 = (fun _ => 1#1)) :
    AllReal (S := S100000x128) a0 ∧ AllReal (S := S64x128) a3 ∧ AllReal (S := S64) a4 ∧ AllReal (S := S64) a5 ∧ AllReal (S := S64) a6
      ∧ AllReal (S := S64) a7 ∧ AllReal (S := S64) a8 ∧ AllReal (S := S64x64) a9 ∧ AllReal (S := S64) a10 ∧ AllReal (S := S64) a11
      ∧ AllReal (S := S64) a12 ∧ AllReal (S := S64) a13 ∧ AllReal (S := S64) a14 ∧ AllReal (S := S1x64) a15 ∧ AllReal (S := S1) a16
      ∧ (∀ i, (0 : EReal) ≤ a8 i) ∧ (∀ i, (0 : EReal) ≤ a14 i) := by
  have e := congrFun h (fun d => d.elim0)
  unfold Cert.Pre_finite_inputs.fn Cert.Pre_finite_inputs.fn_part1 Cert.Pre_finite_inputs.fn_part2
    Cert.Pre_finite_inputs.fn_part3 Cert.Pre_finite_inputs.fn_part4 at e
  simp only [andi, IntOp.andi_eq_one, and_assoc] at e
  obtain ⟨c0, c3, c4, c5, c6, c7, c8, c9, c10, c11, c12, c13, c14, c15, c16, p8, p14⟩ := e
  exact ⟨allReal_of_all c0, allReal_of_all c3, allReal_of_all c4, allReal_of_all c5, allReal_of_all c6, allReal_of_all c7,
    allReal_of_all c8, allReal_of_all c9, allReal_of_all c10, allReal_of_all c11, allReal_of_all c12, allReal_of_all c13,
    allReal_of_all c14, allReal_of_all c15, allReal_of_all c16, nonneg_of_all p8, nonneg_of_all p14⟩

end Cert.Proof.PreDecode

end
-- ==== Proof.Join.lean ====
import proofs.«404818_j7687991460117_2_alg».proof.Defs
import proofs.«404818_j7687991460117_2_alg».proof.Proof.KI.Reading
import proofs.«404818_j7687991460117_2_alg».proof.Proof.Ref.Reading
import proofs.«404818_j7687991460117_2_alg».proof.Proof.Math.Agree
import proofs.«404818_j7687991460117_2_alg».proof.Proof.Pre.Decode

noncomputable section

namespace Cert.Proof.Join

open Idealize.ShloMosaic Idealize.ShloMosaic.TcCoe Idealize.ShloMosaic.ValueIdx Idealize.SL.Sem
open Cert.Proof
open Cert.KernelIdeal.Reading (arg)

variable (m : (ℓ : Loc KernelIdeal.nD KernelIdeal.τ KernelIdeal.sig) → Buf (Elt Ideal) ℓ)
  (m' : (ℓ : Loc ReferenceIdeal.nD ReferenceIdeal.τ ReferenceIdeal.sig) → Buf (Elt Ideal) ℓ)
  (hpre : Cert.Pre_KernelIdeal (hPre_finite_inputs := Cert.Pre_finite_inputs.Gen.facts) m) (c : Dev KernelIdeal.nD)

noncomputable abbrev refArg (r : Ref ReferenceIdeal.sig .tc) := m' ((c.tc : Thread ReferenceIdeal.nD ReferenceIdeal.τ).loc r)

include hpre

-- The decoded precondition: every float input is a real number and both variance vectors are nonnegative.
theorem good : (KernelIdeal.Reading.inputs m c).Good := by
  obtain ⟨h0, h3, h4, h5, h6, h7, h8, h9, h10, h11, h12, h13, h14, h15, h16, hv1, hv2⟩ :=
    PreDecode.decode _ _ _ _ _ _ _ _ _ _ _ _ _ _ _ _ _ (hpre c)
  exact ⟨fun _ _ => h0 _, fun _ _ => h3 _, fun _ => h4 _, fun _ => h5 _, fun _ => h6 _, fun _ => h7 _, fun _ => h8 _,
    fun _ _ => h9 _, fun _ => h10 _, fun _ => h11 _, fun _ => h12 _, fun _ => h13 _, fun _ => h14 _, fun _ => h15 _, h16 _,
    fun _ => hv1 _, fun _ => hv2 _⟩

-- On agreeing arguments the reference computes the plain arrangement and the kernel the factored one, of one good input.
theorem results_agree
    (hagree : refArg m' c ReferenceIdeal.main_arg0 = arg m c KernelIdeal.main_arg0
      ∧ refArg m' c ReferenceIdeal.main_arg1 = arg m c KernelIdeal.main_arg1
      ∧ refArg m' c ReferenceIdeal.main_arg2 = arg m c KernelIdeal.main_arg2
      ∧ refArg m' c ReferenceIdeal.main_arg3 = arg m c KernelIdeal.main_arg3
      ∧ refArg m' c ReferenceIdeal.main_arg4 = arg m c KernelIdeal.main_arg4
      ∧ refArg m' c ReferenceIdeal.main_arg5 = arg m c KernelIdeal.main_arg5
      ∧ refArg m' c ReferenceIdeal.main_arg6 = arg m c KernelIdeal.main_arg6
      ∧ refArg m' c ReferenceIdeal.main_arg7 = arg m c KernelIdeal.main_arg7
      ∧ refArg m' c ReferenceIdeal.main_arg8 = arg m c KernelIdeal.main_arg8
      ∧ refArg m' c ReferenceIdeal.main_arg9 = arg m c KernelIdeal.main_arg9
      ∧ refArg m' c ReferenceIdeal.main_arg10 = arg m c KernelIdeal.main_arg10
      ∧ refArg m' c ReferenceIdeal.main_arg11 = arg m c KernelIdeal.main_arg11
      ∧ refArg m' c ReferenceIdeal.main_arg12 = arg m c KernelIdeal.main_arg12
      ∧ refArg m' c ReferenceIdeal.main_arg13 = arg m c KernelIdeal.main_arg13
      ∧ refArg m' c ReferenceIdeal.main_arg14 = arg m c KernelIdeal.main_arg14
      ∧ refArg m' c ReferenceIdeal.main_arg15 = arg m c KernelIdeal.main_arg15
      ∧ refArg m' c ReferenceIdeal.main_arg16 = arg m c KernelIdeal.main_arg16) :
    ReferenceIdeal.Value.res_main_v131 (F := Ideal) m' c
      = KernelIdeal.Run.at7 (F := Ideal) m c (Proc.devRef .tc KernelIdeal.main_v60) := by
  dsimp only [refArg, arg] at hagree
  obtain ⟨e0, e1, e2, e3, e4, e5, e6, e7, e8, e9, e10, e11, e12, e13, e14, e15, e16⟩ := hagree
  rw [ReferenceIdeal.Read.val_main_v131_eq, e0, e1, e2, e3, e4, e5, e6, e7, e8, e9, e10, e11, e12, e13, e14, e15, e16]
  funext i
  obtain ⟨g, rfl⟩ : ∃ g : Fin 200, i = ix2 g (0 : Fin 1) := ⟨i 0, (eq_ix2 i).trans (congrArg (ix2 (i 0)) (Fin.eq_zero (i 1)))⟩
  exact ((ReferenceIdeal.Reading.result_eq _ _ _ _ _ _ _ _ _ _ _ _ _ _ _ _ _ g).trans
    (Net.KSpec.out_eq_spec _ (good m hpre c) g).symm).trans (KernelIdeal.Reading.result_eq m c g).symm

end Cert.Proof.Join

end
-- ==== Proof.lean ====
import proofs.«404818_j7687991460117_2_alg».proof.Defs
import proofs.«404818_j7687991460117_2_alg».proof.Proof.Gen.Kernel
import proofs.«404818_j7687991460117_2_alg».proof.Proof.Gen.KernelIdeal
import proofs.«404818_j7687991460117_2_alg».proof.Proof.Gen.ReferenceIdeal
import proofs.«404818_j7687991460117_2_alg».proof.Proof.Gen.Pre_finite_inputs
import proofs.«404818_j7687991460117_2_alg».proof.Proof.K.Launch
import proofs.«404818_j7687991460117_2_alg».proof.Proof.KI.Launch
import proofs.«404818_j7687991460117_2_alg».proof.Proof.Ref.Imports
import proofs.«404818_j7687991460117_2_alg».proof.Proof.Join

noncomputable section

namespace Cert.Proof

open Idealize.ShloMosaic Idealize.SL.Sem

theorem frame_kernel : Cert.frame_Kernel (hKernel := Cert.Kernel.Gen.facts) (hPre_finite_inputs := Cert.Pre_finite_inputs.Gen.facts) :=
  fun m ρ _ => Cert.Kernel.Run.frame (F := Bits) m ρ

theorem frame_kernelIdeal : Cert.frame_KernelIdeal (hKernelIdeal := Cert.KernelIdeal.Gen.facts) (hPre_finite_inputs := Cert.Pre_finite_inputs.Gen.facts) :=
  fun m ρ _ => Cert.KernelIdeal.Run.frame (F := Ideal) m ρ

theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

-- Both programs run; the kernel's result buffer at return is named, and the reference's result is shown equal to it.
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Run.at7 (F := Ideal) m c (Proc.devRef .tc Cert.KernelIdeal.main_v60),
    Cert.KernelIdeal.Run.run_result (F := Ideal) m ρ, ?_⟩
  exact (θ_run Cert.ReferenceIdeal.defs _ _).mono
    (fun _ h c => ⟨(h c).1.trans (Join.results_agree m m' hpre c (hagree c)), (h c).2⟩)
    (Cert.ReferenceIdeal.Value.run (F := Ideal) m' ρ')

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
